-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S600000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S600000 32 := broadcastInDim S600000 ![] bcast_S_S600000 main_c_8
  let main_v25 : IVec S600000 1 := cmpi .sge main_arg1 main_v24
  let main_c_9 : IVec S_ 1 := constantI S_ 1 1#1
  let main_v26 : IVec S_ 1 := (fun x v => Host.reduce IntOp.andi x v reducesTo_S600000_S_d0 h_S_) main_v25 main_c_9
  let main_v27 : IVec S_ 1 := andi main_v23 main_v26
  let main_c_10 : IVec S_ 32 := constantI S_ 32 50000#32
  let main_v28 : IVec S600000 32 := broadcastInDim S600000 ![] bcast_S_S600000 main_c_10
  let main_v29 : IVec S600000 1 := cmpi .slt main_arg1 main_v28
  let main_c_11 : IVec S_ 1 := constantI S_ 1 1#1
  let main_v30 : IVec S_ 1 := (fun x v => Host.reduce IntOp.andi x v reducesTo_S600000_S_d0 h_S_) main_v29 main_c_11
  let main_v31 : IVec S_ 1 := andi main_v27 main_v30
  main_v31

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50176x128 : Shape := ⟨2, ![50176, 128]⟩
abbrev S50176 : Shape := ⟨1, ![50176]⟩
abbrev S600064 : Shape := ⟨1, ![600064]⟩
abbrev S600064x128 : Shape := ⟨2, ![600064, 128]⟩
abbrev S2048 : Shape := ⟨1, ![2048]⟩
abbrev S512x128 : Shape := ⟨2, ![512, 128]⟩
abbrev S512 : Shape := ⟨1, ![512]⟩
abbrev S2048x128 : Shape := ⟨2, ![2048, 128]⟩
abbrev S2048x512 : Shape := ⟨2, ![2048, 512]⟩
abbrev S2048x1 : Shape := ⟨2, ![2048, 1]⟩
abbrev S512x1 : Shape := ⟨2, ![512, 1]⟩
abbrev S512x2048 : Shape := ⟨2, ![512, 2048]⟩
abbrev S1x2048 : Shape := ⟨2, ![1, 2048]⟩
abbrev S1x128 : Shape := ⟨2, ![1, 128]⟩

abbrev nBuf : Space → Nat
  | .hbm => 34
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .i32⟩
  | .hbm, ⟨18, _⟩ => ⟨S_, .f32⟩
  | .hbm, ⟨19, _⟩ => ⟨S50176x128, .f32⟩
  | .hbm, ⟨20, _⟩ => ⟨S_, .i32⟩
  | .hbm, ⟨21, _⟩ => ⟨S_, .f32⟩
  | .hbm, ⟨22, _⟩ => ⟨S50176, .f32⟩
  | .hbm, ⟨23, _⟩ => ⟨S_, .i32⟩
  | .hbm, ⟨24, _⟩ => ⟨S_, .i32⟩
  | .hbm, ⟨25, _⟩ => ⟨S600064, .i32⟩
  | .hbm, ⟨26, _⟩ => ⟨S_, .i32⟩
  | .hbm, ⟨27, _⟩ => ⟨S_, .i32⟩
  | .hbm, ⟨28, _⟩ => ⟨S600064, .i32⟩
  | .hbm, ⟨29, _⟩ => ⟨S600064x128, .f32⟩
  | .hbm, ⟨30, _⟩ => ⟨S50176x128, .f32⟩
  | .hbm, ⟨31, _⟩ => ⟨S600064x128, .f32⟩
  | .hbm, ⟨32, _⟩ => ⟨S50176x128, .f32⟩
  | .hbm, ⟨33, _⟩ => ⟨S50000x128, .f32⟩
  | .local _ .vmem, ⟨0, _⟩ => ⟨S2048, .i32⟩
  | .local _ .vmem, ⟨1, _⟩ => ⟨S2048, .i32⟩
  | .local _ .vmem, ⟨2, _⟩ => ⟨S512x128, .f32⟩
  | .local _ .vmem, ⟨3, _⟩ => ⟨S512x128, .f32⟩
  | .local _ .vmem, ⟨4, _⟩ => ⟨S512, .f32⟩
  | .local _ .vmem, ⟨5, _⟩ => ⟨S512, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048, .i32⟩
  | .local _ .vmem, ⟨10, _⟩ => ⟨S2048, .i32⟩
  | .local _ .vmem, ⟨11, _⟩ => ⟨S2048x128, .f32⟩
  | .local _ .vmem, ⟨12, _⟩ => ⟨S2048x128, .f32⟩
  | .local _ .vmem, ⟨13, _⟩ => ⟨S512, .f32⟩
  | .local _ .vmem, ⟨14, _⟩ => ⟨S512, .f32⟩
  | .local _ .vmem, ⟨15, _⟩ => ⟨S128x128, .f32⟩
  | .local _ .vmem, ⟨16, _⟩ => ⟨S128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S2048, .i32⟩
  | .local _ .vmem, ⟨21, _⟩ => ⟨S2048, .i32⟩
  | .local _ .vmem, ⟨22, _⟩ => ⟨S512x128, .f32⟩
  | .local _ .vmem, ⟨23, _⟩ => ⟨S512x128, .f32⟩
  | .local _ .vmem, ⟨24, _⟩ => ⟨S512, .f32⟩
  | .local _ .vmem, ⟨25, _⟩ => ⟨S512, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048, .i32⟩
  | .local _ .vmem, ⟨30, _⟩ => ⟨S2048, .i32⟩
  | .local _ .vmem, ⟨31, _⟩ => ⟨S2048x128, .f32⟩
  | .local _ .vmem, ⟨32, _⟩ => ⟨S2048x128, .f32⟩
  | .local _ .vmem, ⟨33, _⟩ => ⟨S512, .f32⟩
  | .local _ .vmem, ⟨34, _⟩ => ⟨S512, .f32⟩
  | .local _ .vmem, ⟨35, _⟩ => ⟨S128x128, .f32⟩
  | .local _ .vmem, ⟨36, _⟩ => ⟨S128, .f32⟩
  | .local _ .vmem, ⟨37, _⟩ => ⟨S512x128, .f32⟩
  | .local _ .vmem, ⟨38, _⟩ => ⟨S512x128, .f32⟩
  | .local _ .vmem, ⟨39, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_c_2 : Ref sig .tc := ⟨.hbm, 20, rfl⟩
abbrev main_call1_v0 : Ref sig .tc := ⟨.hbm, 21, rfl⟩
abbrev main_v8 : Ref sig .tc := ⟨.hbm, 22, rfl⟩
abbrev main_c_3 : Ref sig .tc := ⟨.hbm, 23, rfl⟩
abbrev main_call2_v0 : Ref sig .tc := ⟨.hbm, 24, rfl⟩
abbrev main_v9 : Ref sig .tc := ⟨.hbm, 25, rfl⟩
abbrev main_c_4 : Ref sig .tc := ⟨.hbm, 26, rfl⟩
abbrev main_call3_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨2, ![293, 98], ![false, false]⟩

def k0_cond2 (i : grid0.Coords) : BitVec 1 :=
  let arg1 : BitVec 32 := BitVec.ofNat 32 (i 1).val
  let c97_i32 : BitVec 32 := 97#32
  let v29 : BitVec 1 := Scalar.cmpi .eq arg1 c97_i32
  let v30 : BitVec 32 := Scalar.extui v29
  let c0_i32_8 : BitVec 32 := 0#32
  let v31 : BitVec 1 := Scalar.cmpi .ne v30 c0_i32_8
  v31

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![98, 293], ![false, false]⟩

def k1_cond2 (i : grid1.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![293, 98], ![false, false]⟩

def k2_cond2 (i : grid2.Coords) : BitVec 1 :=
  let arg1 : BitVec 32 := BitVec.ofNat 32 (i 1).val
  let c97_i32 : BitVec 32 := 97#32
  let v29 : BitVec 1 := Scalar.cmpi .eq arg1 c97_i32
  let v30 : BitVec 32 := Scalar.extui v29
  let c0_i32_8 : BitVec 32 := 0#32
  let v31 : BitVec 1 := Scalar.cmpi .ne v30 c0_i32_8
  v31

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![98, 293], ![false, false]⟩

def k3_cond2 (i : grid3.Coords) : BitVec 1 :=
  let arg1 : BitVec 32 := BitVec.ofNat 32 (i 1).val
  let c292_i32 : BitVec 32 := 292#32
  let v24 : BitVec 1 := Scalar.cmpi .eq arg1 c292_i32
  let v25 : BitVec 32 := Scalar.extui v24
  let c0_i32_7 : BitVec 32 := 0#32
  let v26 : BitVec 1 := Scalar.cmpi .ne v25 c0_i32_7
  v26

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S512x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  pads_S50000x128_S50176x128_01760_000 : S50000x128.Pads (![0, 0] : Fin 2 → Nat) ![176, 0] ![0, 0] S50176x128
  h_S_ : 0 < S_.numel
  pads_S50000_S50176_01760 : S50000.Pads (![0] : Fin 1 → Nat) ![176] ![0] S50176
  pads_S600000_S600064_0640 : S600000.Pads (![0] : Fin 1 → Nat) ![64] ![0] S600064
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x512_d1_w32 : S2048x512.Iotas .tc 32 [1]
  inb_S2048_S2048_0 : ∀ a, (![0] : Fin 1 → Nat) a + S2048.size a ≤ S2048.size a
  h_S2048 : 0 < S2048.numel
  shapeCasts_S2048_S2048 : S2048.ShapeCasts S2048
  shapeCasts_S2048_S2048x1 : S2048.ShapeCasts S2048x1
  broadcasts_S2048x1_S2048x512 : S2048x1.Broadcasts S2048x512
  natLt_1_32 : 1 < 32
  bitsLt_bf16_f32 : FTy.bits .bf16 < FTy.bits .f32
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S512x1_S512x128 : S512x1.Broadcasts S512x128
  iota_S512x2048_d0_w32 : S512x2048.Iotas .tc 32 [0]
  shapeCasts_S2048_S1x2048 : S2048.ShapeCasts S1x2048
  broadcasts_S1x2048_S512x2048 : S1x2048.Broadcasts S512x2048
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  slices_S50176x128_S50000x128_0_0 : S50176x128.Slices ![0, 0] S50000x128
  scatter_S50000_S600000x1_S600000_n_0_0_1_wf : ScatterDims.WF S50000 S600000x1 S600000 [] [0] [0] 1
  dot_S2048x512_S512x128_S2048x128_1_0_0_1_n_n_wf : DotDims.WF S2048x512 S512x128 S2048x128 [1] [0] [0] [1] [] []
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S600064.size a
  hwx0_0 : ∀ i : grid0.Coords, EltTy.bits .i32 = 32 ∨ (Rect.block (s := S600064) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S50176x128.size a
  hwx0_1 : ∀ i : grid0.Coords, EltTy.bits .f32 = 32 ∨ (Rect.block (s := S50176x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S50176.size a
  hwx0_2 : ∀ i : grid0.Coords, EltTy.bits .f32 = 32 ∨ (Rect.block (s := S50176) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S600064x128.size a
  hwx0_3 : ∀ i : grid0.Coords, EltTy.bits .f32 = 32 ∨ (Rect.block (s := S600064x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S600064.size a
  hwx1_0 : ∀ i : grid1.Coords, EltTy.bits .i32 = 32 ∨ (Rect.block (s := S600064) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S600064x128.size a
  hwx1_1 : ∀ i : grid1.Coords, EltTy.bits .f32 = 32 ∨ (Rect.block (s := S600064x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S50176.size a
  hwx1_2 : ∀ i : grid1.Coords, EltTy.bits .f32 = 32 ∨ (Rect.block (s := S50176) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S50176x128.size a
  hwx1_5 : ∀ i : grid1.Coords, EltTy.bits .f32 = 32 ∨ (Rect.block (s := S50176x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S600064.size a
  hwx2_0 : ∀ i : grid2.Coords, EltTy.bits .i32 = 32 ∨ (Rect.block (s := S600064) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S50176x128.size a
  hwx2_1 : ∀ i : grid2.Coords, EltTy.bits .f32 = 32 ∨ (Rect.block (s := S50176x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S50176.size a
  hwx2_2 : ∀ i : grid2.Coords, EltTy.bits .f32 = 32 ∨ (Rect.block (s := S50176) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S600064x128.size a
  hwx2_3 : ∀ i : grid2.Coords, EltTy.bits .f32 = 32 ∨ (Rect.block (s := S600064x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048.size a ≤ S600064.size a
  hwx3_0 : ∀ i : grid3.Coords, EltTy.bits .i32 = 32 ∨ (Rect.block (s := S600064) S2048.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S600064x128.size a
  hwx3_1 : ∀ i : grid3.Coords, EltTy.bits .f32 = 32 ∨ (Rect.block (s := S600064x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S50176.size a
  hwx3_2 : ∀ i : grid3.Coords, EltTy.bits .f32 = 32 ∨ (Rect.block (s := S50176) S512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x128.size a ≤ S50176x128.size a
  hwx3_5 : ∀ i : grid3.Coords, EltTy.bits .f32 = 32 ∨ (Rect.block (s := S50176x128) S512x128.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v9) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v9) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v10) S2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v14) S512x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S600000, .f32⟩
  | .hbm, ⟨9, _⟩ => ⟨S_, .f32⟩
  | .hbm, ⟨10, _⟩ => ⟨S50000, .f32⟩
  | .hbm, ⟨11, _⟩ => ⟨S600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Whole.lean ====
import proofs.«421167_j1614907703321_1_alg».proof.Proof.Gen.Kernel.Regions
import Idealize.ShloMosaic.Lib.Pipeline.FrameSuffix
import Idealize.ShloMosaic.Lib.Pipeline.RegionsLoop

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel.Gen

variable {F : FTy → Type} [FloatOps F]

local notation "𝕄" => MT nD τ sig Unit (Elt F) ℕ (UR sig nD τ) ℕ

/-- Buffer contents, core by core. -/
abbrev EV : Type := (c : Dev nD) → (b : Ref sig .tc) → Buf (Elt F) ((c : Thread nD τ).loc b)

/-- Contents between two items of @main, read reference by reference. -/
abbrev ev (B : Dev nD → Valuation τ sig (Elt F)) : EV (F := F) := fun c b => B c (Proc.devRef .tc b)

/-- What the composition asks of a region's proof data entered at contents V. -/
structure RegionAt {cfg : Pipeline.Cfg sig Λ₀} (V : EV (F := F))
    (dat : (c : Dev nD) → Dat τ (Elt F) Unit ℕ (UR sig nD τ) ℕ cfg c) : Prop where
  hA : ∀ c w, (dat c).A w = V c (Pipeline.arrRef cfg.spec w)
  hq : ∀ c w, (dat c).share w = fullShare
  how : ∀ c t, (dat c).owed t = 0
  hr : ∀ c, (dat c).recorded 0 = Set.univ
  hb : ∀ c, BodyObligation (dat c) (defs₀ (F := F)) Variants.none () Set.univ
  hin : ∀ c, (Pipeline.ΦA cfg.spec c : sProp 𝕄) ⊢ (dat c).Φ 0
  hout : ∀ c, (dat c).Φ (Fin.last cfg.N) ⊢ (Pipeline.ΦA cfg.spec c : sProp 𝕄)

/-- A region's proof data at any entry contents. -/
structure RegionData (cfg : Pipeline.Cfg sig Λ₀) where
  dat : EV (F := F) → (c : Dev nD) → Dat τ (Elt F) Unit ℕ (UR sig nD τ) ℕ cfg c
  ok : ∀ V, RegionAt V (dat V)

section After

variable {cfg : Pipeline.Cfg sig Λ₀} (dat : (c : Dev nD) → Dat τ (Elt F) Unit ℕ (UR sig nD τ) ℕ cfg c)
  (B : Dev nD → Valuation τ sig (Elt F)) (c : Dev nD) (b : Ref sig .tc)

/-- What a region entered at B leaves: its arrays as written back, every other buffer as entered. -/
def after : Valuation τ sig (Elt F) := Pipeline.withArrays cfg.spec c (B c) fun w => (dat c).arrAt w cfg.N

theorem after_arr (hinj : Function.Injective (Pipeline.arrRef cfg.spec)) (w : Fin cfg.W) :
    after dat B c (Proc.devRef .tc (Pipeline.arrRef cfg.spec w)) = (dat c).arrAt w cfg.N :=
  Pipeline.withArrays_arr cfg.spec hinj c _ _ w

theorem after_keep (hb : ∀ w, Pipeline.arrRef cfg.spec w ≠ b) : after dat B c (Proc.devRef .tc b) = B c (Proc.devRef .tc b) :=
  Pipeline.withArrays_of_ne cfg.spec c _ _ b hb

/-- An input window's array is never written and is read off the entry contents. -/
theorem after_same (h : RegionAt (ev B) dat) (hinj : Function.Injective (Pipeline.arrRef cfg.spec)) (hb : ∀ w, Pipeline.arrRef cfg.spec w = b → (cfg.win w).isOut = false) :
    after dat B c (Proc.devRef .tc b) = B c (Proc.devRef .tc b) := by
  by_cases hw : ∃ w, Pipeline.arrRef cfg.spec w = b
  · obtain ⟨w, rfl⟩ := hw
    exact (after_arr dat B c hinj w).trans (((dat c).arrAt_in w (hb w rfl) _).trans (h.hA c w))
  · exact after_keep dat B c b fun w e => hw ⟨w, e⟩

end After

variable (R0 : RegionData (F := F) cfg0) (R1 : RegionData (F := F) cfg1)
  (R2 : RegionData (F := F) cfg2) (R3 : RegionData (F := F) cfg3)
variable (m : (ℓ : Loc nD τ sig) → Buf (Elt F) ℓ)

abbrev entry0 : EV (F := F) := ev (V8 m)
def B9 : Dev nD → Valuation τ sig (Elt F) := after (R0.dat (entry0 m)) (V8 m)
abbrev entry1 : EV (F := F) := ev (B9 R0 m)
def B10 : Dev nD → Valuation τ sig (Elt F) := after (R1.dat (entry1 R0 m)) (B9 R0 m)
abbrev entry2 : EV (F := F) := ev (B10 R0 R1 m)
def B11 : Dev nD → Valuation τ sig (Elt F) := after (R2.dat (entry2 R0 R1 m)) (B10 R0 R1 m)
abbrev entry3 : EV (F := F) := ev (B11 R0 R1 R2 m)
def B12 : Dev nD → Valuation τ sig (Elt F) := after (R3.dat (entry3 R0 R1 R2 m)) (B11 R0 R1 R2 m)
/-- The contents @main returns at. -/
def B13 (c : Dev nD) : Valuation τ sig (Elt F) := StableHlo.after hostOps4 (B12 R0 R1 R2 R3 m c)

section Frame

variable (c : Dev nD) (b : Ref sig .tc)

theorem B9_arr (w : Fin cfg0.W) :
    B9 R0 m c (Proc.devRef .tc (Pipeline.arrRef spec0 w)) = (R0.dat (entry0 m) c).arrAt w cfg0.N :=
  after_arr _ _ c launch0.win.arr_inj w
theorem B10_arr (w : Fin cfg1.W) :
    B10 R0 R1 m c (Proc.devRef .tc (Pipeline.arrRef spec1 w)) = (R1.dat (entry1 R0 m) c).arrAt w cfg1.N :=
  after_arr _ _ c launch1.win.arr_inj w
theorem B11_arr (w : Fin cfg2.W) :
    B11 R0 R1 R2 m c (Proc.devRef .tc (Pipeline.arrRef spec2 w)) = (R2.dat (entry2 R0 R1 m) c).arrAt w cfg2.N :=
  after_arr _ _ c launch2.win.arr_inj w
theorem B12_arr (w : Fin cfg3.W) :
    B12 R0 R1 R2 R3 m c (Proc.devRef .tc (Pipeline.arrRef spec3 w)) = (R3.dat (entry3 R0 R1 R2 m) c).arrAt w cfg3.N :=
  after_arr _ _ c launch3.win.arr_inj w

theorem B9_same (hb : ∀ w, Pipeline.arrRef spec0 w = b → (cfg0.win w).isOut = false) :
    B9 R0 m c (Proc.devRef .tc b) = V8 m c (Proc.devRef .tc b) :=
  after_same _ _ c b (R0.ok _) launch0.win.arr_inj hb
theorem B10_same (hb : ∀ w, Pipeline.arrRef spec1 w = b → (cfg1.win w).isOut = false) :
    B10 R0 R1 m c (Proc.devRef .tc b) = B9 R0 m c (Proc.devRef .tc b) :=
  after_same _ _ c b (R1.ok _) launch1.win.arr_inj hb
theorem B11_same (hb : ∀ w, Pipeline.arrRef spec2 w = b → (cfg2.win w).isOut = false) :
    B11 R0 R1 R2 m c (Proc.devRef .tc b) = B10 R0 R1 m c (Proc.devRef .tc b) :=
  after_same _ _ c b (R2.ok _) launch2.win.arr_inj hb

/-- The references the eight stretches before the regions write. -/
abbrev hostW : List (Ref sig .tc) :=
  hostOps0_W ++ hostOps0_1_W ++ hostOps0_2_W ++ hostOps0_3_W ++ hostOps0_4_W ++ hostOps0_5_W ++ hostOps0_6_W ++ hostOps0_7_W

/-- A reference none of those stretches writes is entered by the first region as launched. -/
theorem B8_launch (h : b ∉ hostW) :
    V8 m c (Proc.devRef .tc b) = m ((c : Thread nD τ).loc b) := by
  simp only [List.mem_append, not_or] at h
  obtain ⟨⟨⟨⟨⟨⟨⟨h0, h1⟩, h2⟩, h3⟩, h4⟩, h5⟩, h6⟩, h7⟩ := h
  exact (V8_of m c b h7).trans <| (V7_of m c b h6).trans <| (V6_of m c b h5).trans <| (V5_of m c b h4).trans <|
    (V4_of m c b h3).trans <| (V3_of m c b h2).trans <| (V2_of m c b h1).trans (V1_of m c b h0)

theorem B13_main_v15 :
    B13 R0 R1 R2 R3 m c (Proc.devRef .tc main_v15)
      = extractStridedSlice S50000x128 ![0, 0] (B12 R0 R1 R2 R3 m c (Proc.devRef .tc main_v14)) slices_S50176x128_S50000x128_0_0 := by
  show StableHlo.after hostOps4 (B12 R0 R1 R2 R3 m c) (Proc.devRef .tc main_v15) = _
  rw [StableHlo.after_cons, StableHlo.after_nil, StableHlo.unary_result]

/-- No host stretch writes b and no region writes back into it. -/
abbrev Kept : Prop :=
  (b ∉ hostW ∧ b ∉ hostOps4_W)
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ ∀ w, Pipeline.arrRef spec3 w = b → (cfg3.win w).isOut = false

/-- A kept reference ends at its launch contents. -/
theorem B13_launch (h : Kept b) :
    B13 R0 R1 R2 R3 m c (Proc.devRef .tc b) = m ((c : Thread nD τ).loc b) :=
  (StableHlo.after_of_writes_sub hostOps4 _ hostOps4_writes h.1.2).trans <|
    (after_same _ _ c b (R3.ok _) launch3.win.arr_inj h.2.2.2.2).trans <|
    (B11_same R0 R1 R2 m c b h.2.2.2.1).trans <| (B10_same R0 R1 m c b h.2.2.1).trans <|
    (B9_same R0 m c b h.2.1).trans (B8_launch m c b h.1.1)

end Frame

abbrev 𝒱₀ : Variants := Variants.none
abbrev L : GSem nD τ sig → Finset Unit := fun _ => ∅
abbrev lv : GSem nD τ sig → Unit → ℕ := fun _ _ => 0

/-- What a core holds beside its unscoped buffers between items: its generator register, and that it owes nothing. -/
abbrev beside (c : Dev nD) : sProp 𝕄 :=
  iprop((∃ r, prngReg c r) ∗ ∃ W, owes (c : Thread nD τ) (0 : CellTallies nD τ sig Unit) W)

abbrev stateAt (B : Dev nD → Valuation τ sig (Elt F)) (c : Dev nD) : sProp 𝕄 :=
  iprop(StableHlo.held (c : Thread nD τ) (Pipeline.ucRefs τ sig) (B c) ∗ beside c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Protocol

variable {cfg : Pipeline.Cfg sig Λ₀} {c : Dev nD} (dat : Dat τ (Elt F) Unit ℕ (UR sig nD τ) ℕ cfg c)

/-- With no tally and no excluded pair at the first point, owing nothing is owing the first tallies. -/
theorem owes_enter (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩
  iexists W
  isplitr
  · ipureintro; exact fun x _ => Or.inl (by rw [hr]; exact Set.mem_univ x)
  iexact HO

theorem owes_leave (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W; iexact HO

end Protocol

theorem inv_enter {gr W : Nat} (win : Fin W → Pipeline.WinSpec sig gr) (c : Dev nD) (T : sProp 𝕄) :
    (iprop((∃ r, prngReg c r) ∗ T ∗ Pipeline.scopedRest win c) : sProp 𝕄) ⊢ Pipeline.ΦA win c := by
  unfold Pipeline.ΦA
  iintro ⟨Hp, -, Hs⟩
  isplitl [Hs]; · iexact Hs
  iexact Hp

theorem inv_leave {gr W : Nat} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hs, Hp⟩
  isplitl [Hp]; · iexact Hp
  isplitr; · iempintro
  iexact Hs

/-- The family of tables is empty, so holding it is holding nothing. -/
theorem noTables (p : Fin 4) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

set_option backward.isDefEq.respectTransparency.types false in
/-- Region `p` as one step of @main's run, from the valuation `B` to the valuation after it. -/
def seg (pd : (p : Fin 4) → (c : Dev nD) → Dat τ (Elt F) Unit ℕ (UR sig nD τ) ℕ (Pipeline.pin (pcfgs (F := F)) adm p) c)
    (p : Fin 4) (lf : Pipeline.LaunchFacts (nD := nD) (τ := τ) cfgs p) (B : Dev nD → Valuation τ sig (Elt F))
    (h : RegionAt (ev B) (pd p)) : Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (h.hb c).loose
  hwaits := Pipeline.hwaits_of_owed_zero _ _ _ _ L lv p h.how
  pre := stateAt B
  post := stateAt (after (pd p) B)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (ev B c)
  hentry c := by
    have hsplit := Pipeline.arrays_of_unscopedBufs (p := p) (pcfgs (F := F)) adm pd lf.win lf.arr_whole c (h.hq c) (ev B c) (h.hA c)
    rw [Pipeline.unscopedBufs_held c (B c)] at hsplit
    iintro ⟨⟨Hub, Hg, HO⟩, -, -⟩
    ihave H := hsplit $$ Hub
    icases H with ⟨Ha, Hrest⟩
    imodintro
    isplitl [Ha]; · iexact Ha
    isplitr; · iapply (noTables p c); iempintro
    isplitl [HO]; · iapply (owes_enter (pd p c) (h.how c 0) (h.hr c)); iexact HO
    isplitl [Hg]; · iexact Hg
    iexact Hrest
  hin c := (inv_enter _ c _).trans (h.hin c)
  hout c := (h.hout c).trans (inv_leave _ c)
  hexit c := by
    have hjoin := Pipeline.unscopedBufs_of_arrays (p := p) (pcfgs (F := F)) adm (Ix := Unit) (Name := ℕ) (U := UR sig nD τ) (Lvl := ℕ)
      lf.win lf.arr_whole c pd (h.hq c) (ev B c) (ev (after (pd p) B) c) ((pd p c).arrAt · _)
      (fun w => (after_arr (pd p) B c lf.win.arr_inj w).symm)
      (fun b hb => after_keep (pd p) B c b fun w e => hb (Finset.mem_image.mpr ⟨w, Finset.mem_univ _, e⟩))
    rw [Pipeline.unscopedBufs_held c (after (pd p) B c)] at hjoin
    iintro ⟨Ha, HO, Hg, Hrest⟩
    imodintro
    isplitl [Ha Hrest]
    · iapply hjoin; isplitl [Ha] <;> iassumption
    isplitl [Hg]; · iexact Hg
    iapply (owes_leave (pd p c) (h.how c _)); iexact HO

/-- Every region's proof data, each at the contents found on its entry. -/
def pdats : (p : Fin 4) → (c : Dev nD) → Dat τ (Elt F) Unit ℕ (UR sig nD τ) ℕ (Pipeline.pin (pcfgs (F := F)) adm p) c
  | ⟨0, _⟩ => R0.dat (entry0 m)
  | ⟨1, _⟩ => R1.dat (entry1 R0 m)
  | ⟨2, _⟩ => R2.dat (entry2 R0 R1 m)
  | ⟨3, _⟩ => R3.dat (entry3 R0 R1 R2 m)

/-- A host stretch from the state at B to the state at B after its operations. -/
abbrev hostFrom (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside

set_option backward.isDefEq.respectTransparency.types false in
/-- @main's thirteen items: eight stretches, the four regions, the closing slice. -/
abbrev items : List (Pipeline.Seg (pcfgs (F := F)) adm (pdats R0 R1 R2 R3 m) () defs₀ 𝒱₀ L lv) :=
  [ .host (hostFrom hostOps0 hostOps0_sub hostOps0_fresh (V0 m)),
    .host (hostFrom hostOps0_1 hostOps0_1_sub hostOps0_1_fresh (V1 m)),
    .host (hostFrom hostOps0_2 hostOps0_2_sub hostOps0_2_fresh (V2 m)),
    .host (hostFrom hostOps0_3 hostOps0_3_sub hostOps0_3_fresh (V3 m)),
    .host (hostFrom hostOps0_4 hostOps0_4_sub hostOps0_4_fresh (V4 m)),
    .host (hostFrom hostOps0_5 hostOps0_5_sub hostOps0_5_fresh (V5 m)),
    .host (hostFrom hostOps0_6 hostOps0_6_sub hostOps0_6_fresh (V6 m)),
    .host (hostFrom hostOps0_7 hostOps0_7_sub hostOps0_7_fresh (V7 m)),
    .region (seg _ 0 launch0 (V8 m) (R0.ok _)),
    .region (seg _ 1 launch1 (B9 R0 m) (R1.ok _)),
    .region (seg _ 2 launch2 (B10 R0 R1 m) (R2.ok _)),
    .region (seg _ 3 launch3 (B11 R0 R1 R2 m) (R3.ok _)),
    .host (hostFrom hostOps4 hostOps4_sub hostOps4_fresh (B12 R0 R1 R2 R3 m)) ]

theorem main_run (c : Dev nD) : main (F := F) c = Pipeline.Seg.run (items R0 R1 R2 R3 m) := by
  rw [main_chain c, Pipeline.Seg.run_eq_chain]; rfl

set_option backward.isDefEq.respectTransparency.types false in
/-- Every weakly fair execution of @main terminates with each core's unscoped buffers at B13. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = B13 R0 R1 R2 R3 m c b) :=
  Pipeline.θ_run_regions_kit (pcfgs (F := F)) adm (pdats R0 R1 R2 R3 m) () cellOf_inj emb₁ defs₀ 𝒱₀ L lv m ρ main
    (items R0 R1 R2 R3 m)
    (fun c Q => by rw [main_run R0 R1 R2 R3 m c])
    (by simp only [items, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := stateAt (V0 m))
    (Tₙ := fun c => iprop(StableHlo.held (c : Thread nD τ) (Pipeline.ucRefs τ sig) (B13 R0 R1 R2 R3 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = B13 R0 R1 R2 R3 m c b)
    (hfin := fun c s' => by
      iintro ⟨⟨Hh, -⟩, HSI⟩
      unfold StableHlo.held
      imodintro
      iapply (pointsTo_read_all (Pipeline.ucRefs τ sig) (fun b => (((c : Thread nD τ)).1, b)) (B13 R0 R1 R2 R3 m c) s')
      isplitl [Hh] <;> iassumption)
    (hQ := fun s h => h)

end Cert.Kernel.Whole

end
-- ==== Proof.Sched.lean ====
import Idealize.ShloMosaic.Lib.Pipeline
import Idealize.ShloMosaic.Lib.Affine

namespace Gcn.Sched

open Idealize.ShloMosaic

/-- The grid of `A` rows of `B` points each, walked row by row. -/
abbrev grid (A B : ℕ) : Pipeline.Grid := ⟨2, ![A, B], ![false, false]⟩

variable {A B : ℕ}

theorem N_eq : (grid A B).N = A * B := by
  simp [Pipeline.Grid.N, List.ofFn, Fin.foldr_succ]

/-- Point `t` lies in column `t % B`. -/
theorem col (t : Fin (grid A B).N) : ((grid A B).coords t 1).val = t.val % B := by
  show t.val / (grid A B).stride 1 % B = _
  rw [show (grid A B).stride 1 = 1 from rfl, Nat.div_one]

/-- Point `t` lies in row `t / B`. -/
theorem row (t : Fin (grid A B).N) : ((grid A B).coords t 0).val = t.val / B := by
  have hN : t.val < B * A := by rw [Nat.mul_comm]; exact lt_of_lt_of_eq t.isLt N_eq
  show t.val / (grid A B).stride 0 % A = _
  rw [show (grid A B).stride 0 = B from by simp [Pipeline.Grid.stride, List.ofFn, Fin.foldr_succ]]
  exact Nat.mod_eq_of_lt (Nat.div_lt_of_lt_mul hN)

/-- The row number fits a 32-bit word. -/
theorem toNat_row (t : Fin (grid A B).N) (hA : A ≤ 2 ^ 32) : (BitVec.ofNat 32 ((grid A B).coords t 0).val).toNat = t.val / B := by
  rw [BitVec.toNat_ofNat, Nat.mod_eq_of_lt (lt_of_lt_of_le ((grid A B).coords t 0).isLt hA), row]

/-- The word "column = k", widened and tested against zero, is one exactly in column `k`. -/
theorem col_word_iff (t : Fin (grid A B).N) (k : ℕ) (hB : B ≤ 2 ^ 32) (hk : k < 2 ^ 32) :
    Scalar.cmpi .ne (Scalar.extui (Scalar.cmpi .eq (BitVec.ofNat 32 ((grid A B).coords t 1).val) (BitVec.ofNat 32 k))) 0#32 = 1#1
      ↔ t.val % B = k := by
  have hw : ∀ b : BitVec 1, Scalar.cmpi .ne (Scalar.extui b) 0#32 = 1#1 ↔ b = 1#1 := by decide
  have hj : ((grid A B).coords t 1).val < 2 ^ 32 := lt_of_lt_of_le ((grid A B).coords t 1).isLt hB
  rw [hw, ← col t]
  show IntOp.cmpi .eq _ _ = 1#1 ↔ _
  rw [IntOp.cmpi_eq]
  constructor
  · intro h
    have := congrArg BitVec.toNat h
    rwa [BitVec.toNat_ofNat, BitVec.toNat_ofNat, Nat.mod_eq_of_lt hj, Nat.mod_eq_of_lt hk] at this
  · intro h; rw [h]

/-- A window whose block number is the row is written back exactly at the last point of each row. -/
theorem flush_iff {sig : RefSig} (w : Pipeline.Window sig (grid A B)) (hB : 0 < B) (hout : w.isOut = true)
    (hidx : ∀ t t' : Fin (grid A B).N, w.index t = w.index t' ↔ t.val / B = t'.val / B) (t : Fin (grid A B).N) :
    w.flush t = true ↔ t.val % B = B - 1 := by
  have hNN : (grid A B).N = A * B := N_eq
  have hN : t.val < A * B := lt_of_lt_of_eq t.isLt hNN
  show (w.isOut && (decide (t.val + 1 = (grid A B).N) || decide (∃ h : t.val + 1 < (grid A B).N, w.index ⟨t.val + 1, h⟩ ≠ w.index t))) = true ↔ _
  rw [hout, Bool.true_and, Bool.or_eq_true, decide_eq_true_eq, decide_eq_true_eq]
  have hdvd : B ∣ t.val + 1 ↔ t.val % B = B - 1 := by
    have hr := Nat.mod_lt t.val hB
    conv_lhs => rw [← Nat.div_add_mod t.val B, Nat.add_assoc]
    rw [Nat.dvd_add_right (Nat.dvd_mul_right B _)]
    constructor
    · intro h; have := Nat.le_of_dvd (Nat.succ_pos _) h; omega
    · intro h; rw [h, Nat.sub_add_cancel hB]
  have hdiv : (t.val + 1) / B = t.val / B ↔ ¬ t.val % B = B - 1 := by
    rw [Nat.succ_div, ← hdvd]
    by_cases hd : B ∣ t.val + 1
    · rw [if_pos hd]; exact ⟨fun h => by omega, fun h => absurd hd h⟩
    · rw [if_neg hd]; exact ⟨fun _ => hd, fun _ => rfl⟩
  constructor
  · rintro (h | ⟨h, hne⟩)
    · by_contra hc
      have h2 := hdiv.mpr hc
      rw [h.trans hNN, Nat.mul_div_cancel _ hB] at h2
      have := Nat.div_lt_of_lt_mul (by rw [Nat.mul_comm]; exact hN : t.val < B * A)
      omega
    · by_contra hc
      exact hne ((hidx _ _).mpr (hdiv.mpr hc))
  · intro h
    by_cases hl : t.val + 1 = (grid A B).N
    · exact Or.inl hl
    · refine Or.inr ⟨by omega, fun he => ?_⟩
      exact (hdiv.mp ((hidx _ _).mp he)) h

end Gcn.Sched
-- ==== Proof.K.Sched.lean ====
import proofs.«421167_j1614907703321_1_alg».proof.Proof.Gen.Kernel.Launch
import proofs.«421167_j1614907703321_1_alg».proof.Proof.Sched

namespace Cert.Kernel.Sched

open Cert.Kernel Cert.Kernel.Gen Idealize.ShloMosaic Gcn.Sched

theorem lt0 (t : Fin cfg0.N) : t.val < 28714 := lt_of_lt_of_eq t.isLt (show cfg0.N = 28714 from N_0)
theorem col0 (t : Fin cfg0.N) : (grid0.coords t 1).val = t.val % 98 := col (A := 293) (B := 98) t
theorem row0 (t : Fin cfg0.N) : (grid0.coords t 0).val = t.val / 98 := row (A := 293) (B := 98) t
theorem reset0_iff (t : Fin cfg0.N) :
    (Scalar.cmpi .ne (Scalar.extui (Scalar.cmpi .eq (BitVec.ofNat 32 (grid0.coords t 1).val) 0#32)) 0#32) = 1#1 ↔ t.val % 98 = 0 :=
  col_word_iff (A := 293) (B := 98) t 0 (by decide) (by decide)
theorem last0_iff (t : Fin cfg0.N) : k0_cond2 (grid0.coords t) = 1#1 ↔ t.val % 98 = 97 :=
  col_word_iff (A := 293) (B := 98) t 97 (by decide) (by decide)
theorem idx0_3 (t : Fin cfg0.N) : win0_3.index t = ![t.val / 98, 0] := by
  show cc0_transform_3 (grid0.coords t) = _
  unfold cc0_transform_3; dsimp only
  rw [toNat_row (A := 293) (B := 98) t (by decide)]; rfl
theorem flush0_out (t : Fin cfg0.N) : (cfg0.win 3).flush t = true ↔ t.val % 98 = 97 :=
  flush_iff (A := 293) (B := 98) win0_3 (by decide) rfl
    (fun t t' => by rw [idx0_3, idx0_3]; exact ⟨fun h => congrFun h 0, fun h => by rw [h]⟩) t

theorem lt1 (t : Fin cfg1.N) : t.val < 28714 := lt_of_lt_of_eq t.isLt (show cfg1.N = 28714 from N_1)
theorem col1 (t : Fin cfg1.N) : (grid1.coords t 1).val = t.val % 293 := col (A := 98) (B := 293) t
theorem row1 (t : Fin cfg1.N) : (grid1.coords t 0).val = t.val / 293 := row (A := 98) (B := 293) t
theorem reset1_iff (t : Fin cfg1.N) :
    (Scalar.cmpi .ne (Scalar.extui (Scalar.cmpi .eq (BitVec.ofNat 32 (grid1.coords t 1).val) 0#32)) 0#32) = 1#1 ↔ t.val % 293 = 0 :=
  col_word_iff (A := 98) (B := 293) t 0 (by decide) (by decide)
theorem last1_iff (t : Fin cfg1.N) : k1_cond2 (grid1.coords t) = 1#1 ↔ t.val % 293 = 292 :=
  col_word_iff (A := 98) (B := 293) t 292 (by decide) (by decide)
theorem idx1_5 (t : Fin cfg1.N) : win1_5.index t = ![t.val / 293, 0] := by
  show cc1_transform_5 (grid1.coords t) = _
  unfold cc1_transform_5; dsimp only
  rw [toNat_row (A := 98) (B := 293) t (by decide)]; rfl
theorem flush1_out (t : Fin cfg1.N) : (cfg1.win 5).flush t = true ↔ t.val % 293 = 292 :=
  flush_iff (A := 98) (B := 293) win1_5 (by decide) rfl
    (fun t t' => by rw [idx1_5, idx1_5]; exact ⟨fun h => congrFun h 0, fun h => by rw [h]⟩) t

end Cert.Kernel.Sched
-- ==== Proof.ViewLib.lean ====
import Idealize.ShloMosaic.Lib.Pipeline.Value

noncomputable section

namespace Gcn.ViewLib

open Idealize.ShloMosaic Idealize.ShloMosaic.TcCoe
open Idealize.SL Idealize.SL.RA Idealize.SL.BI
open scoped Idealize.SL.BI
open Idealize.SL.BI.BIBase Idealize.SL.ProofMode Idealize.SL.Sem

variable {nD : Nat} {τ : Topo} {sig : RefSig} {Val : EltTy → Type}
variable {Ix : Type} [DecidableEq Ix] {Name : Type} [DecidableEq Name] {U : Type} [URA U] {Lvl : Type}
variable {κ : Kind} {sp : Space} {sh : Shape} {e : EltTy}

theorem hzVec : (![0] : Fin 1 → Nat) = fun _ => 0 := funext fun a => by fin_cases a <;> rfl
theorem hzMat : (![0, 0] : Fin 2 → Nat) = fun _ => 0 := funext fun a => by fin_cases a <;> rfl

/-- A whole memref owned at `X` is its points-to at the one raw contents that read `X`. -/
theorem owns_unread (c : Dev nD) {m : Memref sig .tc sp sh e} (h : m.IsWhole) (X : sh.Idx → Val e) :
    (owns (c : Thread nD τ) m fullShare X : sProp (MT nD τ sig Ix Val Name U Lvl)) = (m.view.loc (c : Thread nD τ) ↦[m.view.set]{fullShare} h.unread X) := by
  have h₁ : (owns (c : Thread nD τ) m fullShare X : sProp (MT nD τ sig Ix Val Name U Lvl)) ⊢ (m.view.loc (c : Thread nD τ) ↦[m.view.set]{fullShare} h.unread X) := by
    unfold owns; iintro ⟨%f, %hf, H⟩; obtain rfl := h.eq_unread hf; iexact H
  have h₂ := owns_intro (Ix := Ix) (Name := Name) (U := U) (Lvl := Lvl) (c : Thread nD τ) m fullShare (h.unread X)
  rw [h.read_unread] at h₂
  exact BI.equiv_iff.mp ⟨h₁, h₂⟩

variable [∀ e, Nonempty (Val e)]

/-- A store of the whole shape, made last, leaves its payload. -/
theorem read_writes_unit_zero (v : View sig κ sp sh e) (f : v.ty.Contents Val) {off : Fin sh.rank → Nat} (hz : off = fun _ => 0)
    (inb : ∀ a, off a + sh.size a ≤ sh.size a) (w : sh.Idx → Val e) (L : List (View.Piece Val sh e)) :
    v.read Val (v.writes Val f (⟨Rect.unit off sh.size inb, w⟩ :: L)) = w :=
  (View.read_writes_eq_canon v f _ fun y => ⟨_, List.mem_cons.mpr (.inl rfl), View.mem_set_unit_zero hz inb y⟩).trans
    (View.canon_cons_unit_zero hz inb w L)

/-- A load of the whole shape after a store of the whole shape reads the store's payload. -/
theorem readCov_cons_unit_zero (v : View sig κ sp sh e) {off : Fin sh.rank → Nat} (hz : off = fun _ => 0)
    (inb : ∀ a, off a + sh.size a ≤ sh.size a) (w : sh.Idx → Val e) (L : List (View.Piece Val sh e)) :
    v.readCov (⟨Rect.unit off sh.size inb, w⟩ :: L) (Rect.unit off sh.size inb).toLoadRect = w := by
  rw [View.readCov_eq_canon_ld v _ _ fun y => ⟨_, List.mem_cons.mpr (.inl rfl), View.mem_set_unit_zero hz inb y⟩,
    View.canon_cons_unit_zero hz inb, View.ld_unit_zero hz inb]

omit [∀ e, Nonempty (Val e)] in
/-- A load of the whole shape reads a whole memref's contents. -/
theorem readAt_unit_zero {m : Memref sig κ sp sh e} (h : m.IsWhole) {off : Fin sh.rank → Nat} (hz : off = fun _ => 0)
    (inb : ∀ a, off a + sh.size a ≤ sh.size a) (X : sh.Idx → Val e) :
    m.view.readAt Val (Rect.unit off sh.size inb).toLoadRect (h.unread X) = X := by
  rw [View.readAt_eq_ld, h.read_unread]; exact View.ld_unit_zero hz inb X

end Gcn.ViewLib

end
-- ==== Proof.K.G0Base.lean ====
import proofs.«421167_j1614907703321_1_alg».proof.Proof.Gen.Kernel.Launch
import proofs.«421167_j1614907703321_1_alg».proof.Proof.Gen.Kernel.Skeleton
import proofs.«421167_j1614907703321_1_alg».proof.Proof.K.Sched
import proofs.«421167_j1614907703321_1_alg».proof.Proof.ViewLib
import Idealize.ShloMosaic.Lib.Tactic

noncomputable section

namespace Cert.Kernel.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, read at the contents `V` the region starts from. -/
noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The reduction coordinate is at its first value. -/
abbrev condReset (i : grid0.Coords) : Prop := (Scalar.cmpi .ne (Scalar.extui (Scalar.cmpi .eq (BitVec.ofNat 32 (i 1).val) 0#32)) 0#32) = 1#1

/-- The reduction coordinate is at its last value. -/
abbrev condOut (i : grid0.Coords) : Prop := k0_cond2 i = 1#1

theorem lt_N (t : Fin cfg0.N) : t.val < 28714 := Sched.lt0 t

/-- The output window is written exactly where the reduction ends. -/
theorem out_idle (i : grid0.Coords) (h : ¬condOut i) : cfg0.idle 3 i = true := congrArg not (beq_false_of_ne h)
theorem out_live (i : grid0.Coords) (h : condOut i) : cfg0.idle 3 i = false := congrArg not (beq_iff_eq.mpr h)
theorem out_noFlush (t : Fin cfg0.N) (h : ¬condOut (grid0.coords t)) : (cfg0.win 3).flush t = false :=
  Bool.eq_false_iff.mpr fun hf => h ((Sched.last0_iff t).mpr ((Sched.flush0_out t).mp hf))

/-- Each window's current buffer at point `t`, whole. -/
abbrev ms0 (t : Fin cfg0.N) : Memref sig .tc .vmem S2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .f32 := win0_3.stage (cfg0.slots t 3)
abbrev hs3 (t : Fin cfg0.N) : (ms3 t).IsWhole := hstage0_3 ((cfg0.slots t 3).cast nbuf0_3)

/-- The accumulator. -/
abbrev scM : Memref sig .tc .vmem S2048x128 .f32 := Memref.whole cc0_scratch0
theorem scM_whole : (scM).IsWhole := Memref.isWhole_whole _

/-- The body at point `t`, on the windows' current buffers and the accumulator. -/
abbrev bodyAt (t : Fin cfg0.N) : Prog (TpuEff nD τ sig (Elt F) Λ₀ .tc) PUnit :=
  cc0__gather_kernel (grid0.coords t) (ms0 t) (hs0 t) (ms1 t) (hs1 t) (ms2 t) (hs2 t) (ms3 t) (hs3 t) scM scM_whole

abbrev restBut (c : Dev nD) : sProp 𝕄 :=
  Pipeline.scopedRestBut (Ix := Unit) (Name := ℕ) (U := UR sig nD τ) (Lvl := ℕ) (Val := Elt F) spec0 c [cc0_scratch0]

/-- The region invariant is the accumulator at some contents beside what the region leaves unopened. -/
theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

end Cert.Kernel.G0

end
-- ==== Proof.K.G0RunA.lean ====
import proofs.«421167_j1614907703321_1_alg».proof.Proof.K.G0Base

noncomputable section

namespace Cert.Kernel.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Gcn.ViewLib

variable {F : FTy → Type} [FloatOps F]

local notation "𝕄" => MT nD τ sig Unit (Elt F) ℕ (UR sig nD τ) ℕ

section Run

variable (c : Dev nD) (i : grid0.Coords)
    {arg2 : Memref sig .tc .vmem S2048 .i32} (harg2 : arg2.IsWhole)
    {arg3 : Memref sig .tc .vmem S512x128 .f32} (harg3 : arg3.IsWhole)
    {arg4 : Memref sig .tc .vmem S512 .f32} (harg4 : arg4.IsWhole)
    {arg5 : Memref sig .tc .vmem S2048x128 .f32} (harg5 : arg5.IsWhole)
    {arg6 : Memref sig .tc .vmem S2048x128 .f32} (harg6 : arg6.IsWhole)
    (x0 : Vec F S2048 .i32) (x1 : Vec F S512x128 .f32) (x2 : Vec F S512 .f32) (y s : Vec F S2048x128 .f32)

/-- The accumulator's update by the three input blocks: of the zero block where the reduction starts, else of what it held. -/
noncomputable def accNext : Vec F S2048x128 .f32 := k0_pay2 i x0 x2 x1 (if condReset i then k0_pay1 else s)

set_option maxHeartbeats 1000000 in
/-- In each of the four cases the loads and stores run in order; every store is through the whole rectangle, so the last one decides what is read back. -/
theorem run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (if condOut i then accNext i x0 x1 x2 s else y)
            ∗ owns (c : Thread nD τ) arg6 fullShare (accNext i x0 x1 x2 s)) -∗ K ⟨⟩))
      ⊢ wp frame (wpE (defs₀ (F := F)) Variants.none c none) E (cc0__gather_kernel i arg2 harg2 arg3 harg3 arg4 harg4 arg5 harg5 arg6 harg6) K := by
  unfold accNext
  by_cases hc0 : condReset i <;> by_cases hc2 : condOut i <;>
    (first | rw [if_pos hc0] | rw [if_neg hc0]) <;> (first | rw [if_pos hc2] | rw [if_neg hc2]) <;>
    (simp only [cc0__gather_kernel_eq_skeleton]; unfold cc0__gather_kernel_skel owns
     iintro ⟨⟨%f0, %hf0, H0⟩, ⟨%f1, %hf1, H1⟩, ⟨%f2, %hf2, H2⟩, ⟨%f3, %hf3, H3⟩, ⟨%fs, %hfs, HS⟩, Hk⟩
     obtain rfl := harg2.eq_unread hf0; obtain rfl := harg3.eq_unread hf1; obtain rfl := harg4.eq_unread hf2
     obtain rfl := harg5.eq_unread hf3; obtain rfl := harg6.eq_unread hfs
     sl_exec (disch := first | exact hc0 | exact hc2)
     sl_step
     iapply Hk
     isplitl [H0]; · iexists _; iframe H0; ipureintro; exact hf0
     isplitl [H1]; · iexists _; iframe H1; ipureintro; exact hf1
     isplitl [H2]; · iexists _; iframe H2; ipureintro; exact hf2
     isplitl [H3] <;> iexists _ <;> iframe <;> ipureintro <;> sl_unfold_words <;>
       simp only [View.readAt_eq_ld, Memref.IsWhole.read_unread, View.ld_unit_zero (S := S2048) hzVec, View.ld_unit_zero (S := S512) hzVec,
         View.ld_unit_zero (S := S512x128) hzMat, View.ld_unit_zero (S := S2048x128) hzMat, readCov_cons_unit_zero (sh := S2048x128) _ hzMat, read_writes_unit_zero (sh := S2048x128) _ _ hzMat])

end Run

end Cert.Kernel.G0

end
-- ==== Proof.K.G0Frame.lean ====
import proofs.«421167_j1614907703321_1_alg».proof.Proof.K.G0RunA

noncomputable section

namespace Cert.Kernel.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the updates along its row of the grid so far, from the zero block. -/
noncomputable def accAt (c : Dev nD) : (n : ℕ) → n < cfg0.N → Vec F S2048x128 .f32
  | 0, hn => k0_pay2 (grid0.coords ⟨0, hn⟩) (iblk V c 0 ⟨0, hn⟩) (iblk V c 2 ⟨0, hn⟩) (iblk V c 1 ⟨0, hn⟩) (k0_pay1 (F := F))
  | n + 1, hn =>
    if (n + 1) % 98 = 0 then
      k0_pay2 (grid0.coords ⟨n + 1, hn⟩) (iblk V c 0 ⟨n + 1, hn⟩) (iblk V c 2 ⟨n + 1, hn⟩) (iblk V c 1 ⟨n + 1, hn⟩) (k0_pay1 (F := F))
    else
      k0_pay2 (grid0.coords ⟨n + 1, hn⟩) (iblk V c 0 ⟨n + 1, hn⟩) (iblk V c 2 ⟨n + 1, hn⟩) (iblk V c 1 ⟨n + 1, hn⟩) (accAt c n (Nat.lt_of_succ_lt hn))

/-- Where the body stores the output, it stores the accumulator. -/
noncomputable def outAt (c : Dev nD) : (n : ℕ) → n < cfg0.N → Vec F S2048x128 .f32 :=
  fun n hn => accAt V c n hn

theorem accAt_first (c : Dev nD) (t : Fin cfg0.N) (h : t.val % 98 = 0) :
    accAt V c t.val t.isLt = k0_pay2 (grid0.coords t) (iblk V c 0 t) (iblk V c 2 t) (iblk V c 1 t) (k0_pay1 (F := F)) := by
  obtain ⟨_ | n, hn⟩ := t
  exacts [rfl, if_pos h]

theorem accAt_next (c : Dev nD) (t : Fin cfg0.N) (h : ¬ t.val % 98 = 0) :
    accAt V c t.val t.isLt = k0_pay2 (grid0.coords t) (iblk V c 0 t) (iblk V c 2 t) (iblk V c 1 t) (accAt V c (t.val - 1) (Nat.lt_of_le_of_lt (Nat.sub_le _ _) t.isLt)) := by
  obtain ⟨_ | n, hn⟩ := t
  exacts [absurd (Nat.zero_mod _) h, if_neg h]

theorem outAt_last (c : Dev nD) (t : Fin cfg0.N) (h : t.val % 98 = 97) : outAt V c t.val t.isLt = accAt V c t.val t.isLt := rfl

/-- Both cases of the recursion are one step of `accNext`, which is what the body computes. -/
theorem accAt_step (c : Dev nD) (t : Fin cfg0.N) (s : Vec F S2048x128 .f32)
    (hs : t.val ≠ 0 → s = accAt V c (t.val - 1) (Nat.lt_of_le_of_lt (Nat.sub_le _ _) t.isLt)) :
    accNext (grid0.coords t) (iblk V c 0 t) (iblk V c 1 t) (iblk V c 2 t) s = accAt V c t.val t.isLt := by
  unfold accNext
  by_cases h : t.val % 98 = 0
  · rw [if_pos ((Sched.reset0_iff t).mpr h), accAt_first V c t h]
  · rw [if_neg (mt (Sched.reset0_iff t).mp h), accAt_next V c t h, hs fun e => h (by rw [e])]

/-- The invariant names the accumulator's contents from the first point on; before it they are arbitrary. -/
noncomputable def PhiS (c : Dev nD) (n : ℕ) (hn : n ≤ cfg0.N) : sProp 𝕄 :=
  iprop(iprop(iprop(∃ s, ⌜∀ h : n ≠ 0, s = accAt V c (n - 1) (by omega)⌝ ∗ owns (c : Thread nD τ) scM fullShare s) ∗ restBut (F := F) c) ∗ (∃ r, prngReg c r))

/-- The region's proof data over any entry contents `V`. -/
noncomputable def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem dat_A (c : Dev nD) (w : Fin cfg0.W) : (dat V c).A w = V c (Pipeline.arrRef spec0 w) := rfl
theorem dat_share (c : Dev nD) : ∀ w, (dat V c).share w = fullShare := (dat V c).share_full fun _ => rfl
theorem dat_owed (c : Dev nD) (t) : (dat V c).owed t = 0 := rfl
theorem dat_after_in0 (c : Dev nD) (t : Fin cfg0.N) : (dat V c).after 0 t = iblk V c 0 t := rfl
theorem dat_after_in1 (c : Dev nD) (t : Fin cfg0.N) : (dat V c).after 1 t = iblk V c 1 t := rfl
theorem dat_after_in2 (c : Dev nD) (t : Fin cfg0.N) : (dat V c).after 2 t = iblk V c 2 t := rfl
theorem dat_after_out (c : Dev nD) (t : Fin cfg0.N) : (dat V c).after 3 t = outAt V c t.val t.isLt := rfl

/-- Every point is live for an input window, and what the body leaves there is the window's block. -/
theorem before0 (c : Dev nD) (t : Fin cfg0.N) (d) : (dat V c).before 0 t d = iblk V c 0 t :=
  (dat V c).before_in_eq_fetched 0 rfl (fun _ => rfl) (fun _ _ _ => rfl) (fun _ => rfl) t d
theorem before1 (c : Dev nD) (t : Fin cfg0.N) (d) : (dat V c).before 1 t d = iblk V c 1 t :=
  (dat V c).before_in_eq_fetched 1 rfl (fun _ => rfl) (fun _ _ _ => rfl) (fun _ => rfl) t d
theorem before2 (c : Dev nD) (t : Fin cfg0.N) (d) : (dat V c).before 2 t d = iblk V c 2 t :=
  (dat V c).before_in_eq_fetched 2 rfl (fun _ => rfl) (fun _ _ _ => rfl) (fun _ => rfl) t d

/-- The two shapes of the output window's post, by whether the reduction ends at the point. -/
theorem leaves_out (c : Dev nD) (t : Fin cfg0.N) (d) :
    owns (c : Thread nD τ) (ms3 t) fullShare (if condOut (grid0.coords t) then accAt V c t.val t.isLt else (dat V c).before 3 t d)
      ⊢ (dat V c).leavesExact 3 t := by
  by_cases h : condOut (grid0.coords t)
  · rw [if_pos h]; unfold Dat.leavesExact; rw [out_live _ h]; exact .rfl
  · rw [if_neg h, Dat.leavesExact_idle _ 3 t (out_idle _ h) (out_noFlush t h)]
    iintro H; iexists d; iexact H

/-- One use of `run`: the invariant lends the accumulator, and `accAt_step` names what comes back. -/
theorem sound_body (c : Dev nD) (t : Fin cfg0.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt (F := F) t) (fun _ =>
        iprop(PhiS V c (t.val + 1) t.isLt ∗ (dat V c).owesAt () t.castSucc
          ∗ owns (c : Thread nD τ) (ms0 t) fullShare (iblk V c 0 t) ∗ owns (c : Thread nD τ) (ms1 t) fullShare (iblk V c 1 t)
          ∗ owns (c : Thread nD τ) (ms2 t) fullShare (iblk V c 2 t) ∗ (dat V c).leavesExact 3 t)) := by
  unfold PhiS bodyAt
  simp only [before0, before1, before2]
  iintro ⟨⟨⟨⟨%s, %hs, HS⟩, HR⟩, Hg⟩, Ho, ⟨%d0, H0⟩, ⟨%d1, H1⟩, ⟨%d2, H2⟩, ⟨%d3, H3⟩⟩
  iapply (run c (grid0.coords t) (hs0 t) (hs1 t) (hs2 t) (hs3 t) scM_whole (iblk V c 0 t) (iblk V c 1 t) (iblk V c 2 t) _ s Set.univ _)
  iframe H0 H1 H2 H3 HS
  iintro ⟨H0, H1, H2, H3, HS⟩
  rw [accAt_step V c t s hs]
  iframe H0 H1 H2 Ho HR Hg
  isplitl [HS]
  · iexists _; iframe HS; ipureintro; exact fun _ => rfl
  iapply (leaves_out V c t d3); iexact H3

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [PhiA_eq]; show _ ⊢ PhiS V c 0 (Nat.zero_le _); unfold PhiS
  iintro ⟨⟨⟨%s, HS⟩, HR⟩, Hg⟩
  iframe HR Hg; iexists s; iframe HS; ipureintro; exact fun h => absurd rfl h

theorem hout (c : Dev nD) : (dat V c).Φ (Fin.last cfg0.N) ⊢ Pipeline.ΦA spec0 c := by
  rw [PhiA_eq]; show PhiS V c cfg0.N (Nat.le_refl _) ⊢ _; unfold PhiS
  iintro ⟨⟨⟨%s, -, HS⟩, HR⟩, Hg⟩
  iframe HR Hg; iexists s; iexact HS

end Cert.Kernel.G0

end
-- ==== Proof.K.S1Base.lean ====
import proofs.«421167_j1614907703321_1_alg».proof.Proof.Gen.Kernel.Launch
import proofs.«421167_j1614907703321_1_alg».proof.Proof.Gen.Kernel.Skeleton
import proofs.«421167_j1614907703321_1_alg».proof.Proof.ViewLib
import Idealize.ShloMosaic.Lib.Pipeline.FrameBody
import Idealize.ShloMosaic.Lib.Ring
import Idealize.ShloMosaic.Lib.Tactic

noncomputable section

namespace Cert.Kernel.S1

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel.Gen Gcn.ViewLib

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem idleAt1_5 (i : grid1.Coords) (h : ¬cond1_1 i) : cfg1.idle 5 i = true := by
  show (!(k1_cond2 i == 1#1)) = true
  rw [beq_eq_false_iff_ne.mpr h]; rfl

theorem liveAt1_5 (i : grid1.Coords) (h : cond1_1 i) : cfg1.idle 5 i = false := by
  show (!(k1_cond2 i == 1#1)) = false
  rw [show k1_cond2 i = 1#1 from h]; rfl

structure Args where
  (m0 : Memref sig .tc .vmem S2048 .i32) (h0 : m0.IsWhole)
  (m1 : Memref sig .tc .vmem S2048x128 .f32) (h1 : m1.IsWhole)
  (m2 : Memref sig .tc .vmem S512 .f32) (h2 : m2.IsWhole)
  (m3 : Memref sig .tc .vmem S128x128 .f32) (h3 : m3.IsWhole)
  (m4 : Memref sig .tc .vmem S128 .f32) (h4 : m4.IsWhole)
  (m5 : Memref sig .tc .vmem S512x128 .f32) (h5 : m5.IsWhole)
  (ms : Memref sig .tc .vmem S512x128 .f32) (hs : ms.IsWhole)

abbrev scM1 : Memref sig .tc .vmem S512x128 .f32 := Memref.whole cc1_scratch0

abbrev argsAt (t : Fin cfg1.N) : Args where
  m0 := win1_0.stage (cfg1.slots t 0)
  h0 := hstage1_0 ((cfg1.slots t 0).cast nbuf1_0)
  m1 := win1_1.stage (cfg1.slots t 1)
  h1 := hstage1_1 ((cfg1.slots t 1).cast nbuf1_1)
  m2 := win1_2.stage (cfg1.slots t 2)
  h2 := hstage1_2 ((cfg1.slots t 2).cast nbuf1_2)
  m3 := win1_3.stage (cfg1.slots t 3)
  h3 := hstage1_3 ((cfg1.slots t 3).cast nbuf1_3)
  m4 := win1_4.stage (cfg1.slots t 4)
  h4 := hstage1_4 ((cfg1.slots t 4).cast nbuf1_4)
  m5 := win1_5.stage (cfg1.slots t 5)
  h5 := hstage1_5 ((cfg1.slots t 5).cast nbuf1_5)
  ms := scM1
  hs := Memref.isWhole_whole _

/-- The five inputs owned at their contents, beside `Q`. -/
def Args.ins (a : Args) (c : Dev nD) (x0 : Vec F S2048 .i32) (x1 : Vec F S2048x128 .f32) (x2 : Vec F S512 .f32) (x3 : Vec F S128x128 .f32) (x4 : Vec F S128 .f32) (Q : sProp 𝕄) : sProp 𝕄 :=
  iprop(owns (c : Thread nD τ) a.m0 fullShare x0 ∗ owns (c : Thread nD τ) a.m1 fullShare x1 ∗ owns (c : Thread nD τ) a.m2 fullShare x2 ∗ owns (c : Thread nD τ) a.m3 fullShare x3 ∗ owns (c : Thread nD τ) a.m4 fullShare x4 ∗ Q)

abbrev Args.body (a : Args) (i : grid1.Coords) : Prog (TpuEff nD τ sig (Elt F) Λ₀ .tc) PUnit :=
  cc1__scatter_kernel i a.m0 a.h0 a.m1 a.h1 a.m2 a.h2 a.m3 a.h3 a.m4 a.h4 a.m5 a.h5 a.ms a.hs

/-- The body at coordinates `i` on the memrefs `a` runs from `P` to `Q`. -/
def Runs (c : Dev nD) (i : grid1.Coords) (a : Args) (P Q : sProp 𝕄) : Prop :=
  ∀ (E : Set ℕ) (K : PUnit → sProp 𝕄), iprop(P ∗ (Q -∗ K ⟨⟩)) ⊢ wp frame (wpE (defs₀ (F := F)) Variants.none c none) E (a.body i) K

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1 fullShare d)) ∗ restBut1 (F := F) c) ∗ (∃ r, prngReg c r)) := by
  unfold Pipeline.ΦA; rw [scopedRest1_split]; simp only [scM1, owns_whole]; try rfl

/-- What the accumulator holds after the body: the point's contribution added to the zero block where the reduction coordinate is 0, else to `xs`. -/
def accNext (i : grid1.Coords) (x0 : Vec F S2048 .i32) (x1 : Vec F S2048x128 .f32) (xs : Vec F S512x128 .f32) : Vec F S512x128 .f32 :=
  k1_pay2 i x0 x1 (if cond1_0 i then k1_pay1 (F := F) else xs)

end Cert.Kernel.S1

end
-- ==== Proof.K.S1RunA.lean ====
import proofs.«421167_j1614907703321_1_alg».proof.Proof.K.S1Base

noncomputable section

namespace Cert.Kernel.S1

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel.Gen Gcn.ViewLib

variable {F : FTy → Type} [FloatOps F]

local notation "𝕄" => MT nD τ sig Unit (Elt F) ℕ (UR sig nD τ) ℕ

set_option maxHeartbeats 1000000 in
/-- The body leaves the accumulator at `accNext`, and writes the output block from it where the reduction coordinate is the last. -/
theorem run1 (c : Dev nD) (i : grid1.Coords) (a : Args)
    (x0 : Vec F S2048 .i32) (x1 : Vec F S2048x128 .f32) (x2 : Vec F S512 .f32) (x3 : Vec F S128x128 .f32) (x4 : Vec F S128 .f32) (xs x5 : Vec F S512x128 .f32) :
    Runs c i a (a.ins c x0 x1 x2 x3 x4 iprop(owns (c : Thread nD τ) a.m5 fullShare x5 ∗ owns (c : Thread nD τ) a.ms fullShare xs))
      (a.ins c x0 x1 x2 x3 x4 iprop(owns (c : Thread nD τ) a.m5 fullShare (if cond1_1 i then k1_pay3 x2 (accNext i x0 x1 xs) x3 x4 else x5)
        ∗ owns (c : Thread nD τ) a.ms fullShare (accNext i x0 x1 xs))) := by
  obtain ⟨m0, h0, m1, h1, m2, h2, m3, h3, m4, h4, m5, h5, ms, hs⟩ := a
  unfold Runs Args.ins Args.body accNext
  intro E K
  simp only [owns_unread c h0, owns_unread c h1, owns_unread c h2, owns_unread c h3, owns_unread c h4, cc1__scatter_kernel_eq_skeleton]
  unfold cc1__scatter_kernel_skel owns
  iintro ⟨⟨H0, H1, H2, H3, H4, ⟨%f5, %hf5, H5⟩, ⟨%fs, %hfs, HS⟩⟩, Hk⟩
  obtain rfl := h5.eq_unread hf5
  obtain rfl := hs.eq_unread hfs
  by_cases hc0 : cond1_0 i <;> by_cases hc1 : cond1_1 i <;>
    (first | rw [if_pos hc0] | rw [if_neg hc0]) <;> (first | rw [if_pos hc1] | rw [if_neg hc1])
  all_goals
    sl_exec (disch := first | exact hc0 | exact hc1)
    sl_step
    iapply Hk
    iframe H0 H1 H2 H3 H4
    isplitl [H5]
    · iexists _; isplitr; swap; · iexact H5
      ipureintro
      first
        | exact h5.read_unread _
        | (sl_unfold_words; rw [read_writes_unit_zero m5.view _ hzMat]; simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat])
    iexists _; isplitr; swap; · iexact HS
    ipureintro
    sl_unfold_words
    rw [read_writes_unit_zero ms.view _ hzMat]
    simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat]

end Cert.Kernel.S1

end
-- ==== Proof.K.S1Frame.lean ====
import proofs.«421167_j1614907703321_1_alg».proof.Proof.K.S1RunA
import proofs.«421167_j1614907703321_1_alg».proof.Proof.K.Sched
import Idealize.ShloMosaic.Lib.Pipeline.Value

noncomputable section

namespace Cert.Kernel.S1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def accAt (c : Dev nD) : (n : ℕ) → n < cfg1.N → Vec F S512x128 .f32
  | 0, hn => k1_pay2 (grid1.coords ⟨0, hn⟩) (iblk V c 0 ⟨0, hn⟩) (iblk V c 1 ⟨0, hn⟩) (k1_pay1 (F := F))
  | n + 1, hn =>
    if (n + 1) % 293 = 0 then
      k1_pay2 (grid1.coords ⟨n + 1, hn⟩) (iblk V c 0 ⟨n + 1, hn⟩) (iblk V c 1 ⟨n + 1, hn⟩) (k1_pay1 (F := F))
    else
      k1_pay2 (grid1.coords ⟨n + 1, hn⟩) (iblk V c 0 ⟨n + 1, hn⟩) (iblk V c 1 ⟨n + 1, hn⟩) (accAt c n (Nat.lt_of_succ_lt hn))

noncomputable def outAt (c : Dev nD) : (n : ℕ) → n < cfg1.N → Vec F S512x128 .f32 :=
  fun n hn => k1_pay3 (iblk V c 2 ⟨n, hn⟩) (accAt V c n hn) (iblk V c 3 ⟨n, hn⟩) (iblk V c 4 ⟨n, hn⟩)

theorem accAt_first (c : Dev nD) (t : Fin cfg1.N) (h : t.val % 293 = 0) :
    accAt V c t.val t.isLt = k1_pay2 (grid1.coords t) (iblk V c 0 t) (iblk V c 1 t) (k1_pay1 (F := F)) := by
  obtain ⟨n, hn⟩ := t
  cases n with
  | zero => rfl
  | succ n => exact (if_pos h).trans rfl

theorem accAt_next (c : Dev nD) (t : Fin cfg1.N) (h : ¬ t.val % 293 = 0) :
    accAt V c t.val t.isLt = k1_pay2 (grid1.coords t) (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

theorem outAt_last (c : Dev nD) (t : Fin cfg1.N) (h : t.val % 293 = 292) :
    outAt V c t.val t.isLt = k1_pay3 (iblk V c 2 t) (accAt V c t.val t.isLt) (iblk V c 3 t) (iblk V c 4 t) := rfl

/-- The invariant before position `n`: the accumulator at what position `n - 1` left (at anything before position 0). -/
noncomputable def PhiS (c : Dev nD) : (n : ℕ) → n ≤ cfg1.N → sProp 𝕄
  | 0, _ => Pipeline.ΦA spec1 c
  | n + 1, hn => iprop(iprop(owns (c : Thread nD τ) scM1 fullShare (accAt V c n hn) ∗ restBut1 (F := F) c) ∗ (∃ r, prngReg c r))

theorem PhiS_pos (c : Dev nD) (n : ℕ) (h : n ≤ cfg1.N) (hz : n ≠ 0) :
    PhiS V c n h = iprop(iprop(owns (c : Thread nD τ) scM1 fullShare (accAt V c (n - 1) (by omega)) ∗ restBut1 (F := F) c) ∗ (∃ r, prngReg c r)) := by
  cases n with
  | zero => exact absurd rfl hz
  | succ n => rfl

/-- At every position the invariant gives back what the call was handed: the accumulator's contents are forgotten. -/
theorem PhiS_out (c : Dev nD) (n : ℕ) (h : n ≤ cfg1.N) : PhiS V c n h ⊢ Pipeline.ΦA spec1 c := by
  cases n with
  | zero => exact Idealize.SL.BI.Entails.refl _
  | succ n =>
    rw [PhiS, PhiA1_eq]
    iintro ⟨⟨HS, Hr⟩, Hg⟩
    iframe Hr Hg
    iexists _; iexact HS

noncomputable def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t.val t.isLt
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem dat_share (c : Dev nD) : ∀ w, (dat V c).share w = fullShare := (dat V c).share_full fun _ => rfl
theorem dat_owed (c : Dev nD) (t) : (dat V c).owed t = 0 := rfl

theorem dat_after_in0 (c : Dev nD) (t : Fin cfg1.N) : (dat V c).after 0 t = iblk V c 0 t := by dsimp only [dat]
theorem dat_after_in1 (c : Dev nD) (t : Fin cfg1.N) : (dat V c).after 1 t = iblk V c 1 t := by dsimp only [dat]
theorem dat_after_in2 (c : Dev nD) (t : Fin cfg1.N) : (dat V c).after 2 t = iblk V c 2 t := by dsimp only [dat]
theorem dat_after_in3 (c : Dev nD) (t : Fin cfg1.N) : (dat V c).after 3 t = iblk V c 3 t := by dsimp only [dat]
theorem dat_after_in4 (c : Dev nD) (t : Fin cfg1.N) : (dat V c).after 4 t = iblk V c 4 t := by dsimp only [dat]
theorem dat_after_out (c : Dev nD) (t : Fin cfg1.N) : (dat V c).after 5 t = outAt V c t.val t.isLt := by dsimp only [dat]

/-- Before the body at any point each input holds its block there. -/
theorem before1_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg1.N) (d) : (dat V c).before 4 t d = iblk V c 4 t :=
  ((dat V c).before_in_eq_fetched 4 rfl (fun _ => rfl) (fun _ _ _ => rfl) (fun _ => rfl) t d).trans rfl

theorem leaves1_5 (c : Dev nD) (t : Fin cfg1.N) (h1 : cond1_1 (grid1.coords t)) :
    (dat V c).leavesExact 5 t = owns (c : Thread nD τ) (argsAt t).m5 fullShare (outAt V c t.val t.isLt) := by
  rw [← dat_after_out V c t]; unfold Dat.leavesExact; rw [liveAt1_5 (grid1.coords t) h1]

/-- The body at any point: the point's position on the reduction axis picks the run, and the invariant carries the accumulator from point to point. -/
theorem sound_body (c : Dev nD) (t : Fin cfg1.N) :
    iprop(PhiS V c t.val (Nat.le_of_lt t.isLt) ∗ (dat V c).owesAt () t.castSucc
      ∗ (∃ d, owns (c : Thread nD τ) (argsAt t).m0 fullShare ((dat V c).before 0 t d))
      ∗ (∃ d, owns (c : Thread nD τ) (argsAt t).m1 fullShare ((dat V c).before 1 t d))
      ∗ (∃ d, owns (c : Thread nD τ) (argsAt t).m2 fullShare ((dat V c).before 2 t d))
      ∗ (∃ d, owns (c : Thread nD τ) (argsAt t).m3 fullShare ((dat V c).before 3 t d))
      ∗ (∃ d, owns (c : Thread nD τ) (argsAt t).m4 fullShare ((dat V c).before 4 t d))
      ∗ (∃ d, owns (c : Thread nD τ) (argsAt t).m5 fullShare ((dat V c).before 5 t d)))
    ⊢ wp frame (wpE (defs₀ (F := F)) Variants.none c none) Set.univ ((argsAt t).body (grid1.coords t)) fun _ =>
      iprop(PhiS V c (t.val + 1) t.isLt ∗ (dat V c).owesAt () t.castSucc
        ∗ (argsAt t).ins c (iblk V c 0 t) (iblk V c 1 t) (iblk V c 2 t) (iblk V c 3 t) (iblk V c 4 t) ((dat V c).leavesExact 5 t)) := by
  simp only [before1_0, before1_1, before1_2, before1_3, before1_4]
  rw [PhiS]
  unfold Args.ins
  have hr := Sched.reset1_iff t
  have hl := Sched.last1_iff t
  by_cases h0 : t.val % 293 = 0
  case' pos =>
    have hc1 : ¬cond1_1 (grid1.coords t) := fun h => by have := hl.mp h; omega
    rw [accAt_first V c t h0, Dat.leavesExact_idle (dat V c) 5 t (idleAt1_5 _ hc1) (Bool.eq_false_iff.mpr fun hf => hc1 (hl.mpr ((Sched.flush1_out t).mp hf)))]
    refine (sep_mono_left (PhiS_out V c _ _)).trans ?_
    rw [PhiA1_eq]
    iintro ⟨⟨⟨⟨%xs, HS⟩, Hr⟩, Hg⟩, Ho, ⟨%d0, H0⟩, ⟨%d1, H1⟩, ⟨%d2, H2⟩, ⟨%d3, H3⟩, ⟨%d4, H4⟩, ⟨%d5, H5⟩⟩
    have R := run1 c (grid1.coords t) (argsAt t) (iblk V c 0 t) (iblk V c 1 t) (iblk V c 2 t) (iblk V c 3 t) (iblk V c 4 t) xs ((dat V c).before 5 t d5)
    unfold Runs Args.ins accNext at R
    rw [if_pos (hr.mpr h0), if_neg hc1] at R
  case' neg =>
    have hc0 : ¬cond1_0 (grid1.coords t) := fun h => h0 (hr.mp h)
    rw [accAt_next V c t h0, PhiS_pos V c _ _ (fun e => h0 (by rw [e]))]
    by_cases h1 : t.val % 293 = 292
    case' pos => rw [leaves1_5 V c t (hl.mpr h1), outAt_last V c t h1, accAt_next V c t h0]
    case' neg => rw [Dat.leavesExact_idle (dat V c) 5 t (idleAt1_5 _ fun h => h1 (hl.mp h)) (Bool.eq_false_iff.mpr fun hf => h1 ((Sched.flush1_out t).mp hf))]
    all_goals
      iintro ⟨⟨⟨HS, Hr⟩, Hg⟩, Ho, ⟨%d0, H0⟩, ⟨%d1, H1⟩, ⟨%d2, H2⟩, ⟨%d3, H3⟩, ⟨%d4, H4⟩, ⟨%d5, H5⟩⟩
      have R := run1 c (grid1.coords t) (argsAt t) (iblk V c 0 t) (iblk V c 1 t) (iblk V c 2 t) (iblk V c 3 t) (iblk V c 4 t) (accAt V c (t.val - 1) (Nat.lt_of_le_of_lt (Nat.sub_le _ _) t.isLt)) ((dat V c).before 5 t d5)
      unfold Runs Args.ins accNext at R
      first
        | rw [if_neg hc0, if_pos (hl.mpr h1)] at R
        | rw [if_neg hc0, if_neg fun h => h1 (hl.mp h)] at R
  all_goals
    iapply R Set.univ _
    iframe H0 H1 H2 H3 H4 H5 HS
    iintro ⟨H0, H1, H2, H3, H4, H5, HS⟩
    iframe HS Hr Hg Ho H0 H1 H2 H3 H4
    first | iexact H5 | (iexists _; iexact H5)

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := Idealize.SL.BI.Entails.refl _

theorem hout (c : Dev nD) : (dat V c).Φ (Fin.last cfg1.N) ⊢ Pipeline.ΦA spec1 c :=
  PhiS_out V c _ (Nat.le_of_lt_succ (Fin.last cfg1.N).isLt)

end Cert.Kernel.S1

end
-- ==== Proof.K.Sched2.lean ====
import proofs.«421167_j1614907703321_1_alg».proof.Proof.Gen.Kernel.Launch
import proofs.«421167_j1614907703321_1_alg».proof.Proof.Sched

namespace Cert.Kernel.Sched

open Cert.Kernel Cert.Kernel.Gen Idealize.ShloMosaic Gcn.Sched

theorem lt2 (t : Fin cfg2.N) : t.val < 28714 := lt_of_lt_of_eq t.isLt (show cfg2.N = 28714 from N_2)
theorem col2 (t : Fin cfg2.N) : (grid2.coords t 1).val = t.val % 98 := col (A := 293) (B := 98) t
theorem row2 (t : Fin cfg2.N) : (grid2.coords t 0).val = t.val / 98 := row (A := 293) (B := 98) t
theorem reset2_iff (t : Fin cfg2.N) :
    (Scalar.cmpi .ne (Scalar.extui (Scalar.cmpi .eq (BitVec.ofNat 32 (grid2.coords t 1).val) 0#32)) 0#32) = 1#1 ↔ t.val % 98 = 0 :=
  col_word_iff (A := 293) (B := 98) t 0 (by decide) (by decide)
theorem last2_iff (t : Fin cfg2.N) : k2_cond2 (grid2.coords t) = 1#1 ↔ t.val % 98 = 97 :=
  col_word_iff (A := 293) (B := 98) t 97 (by decide) (by decide)
theorem idx2_3 (t : Fin cfg2.N) : win2_3.index t = ![t.val / 98, 0] := by
  show cc2_transform_3 (grid2.coords t) = _
  unfold cc2_transform_3; dsimp only
  rw [toNat_row (A := 293) (B := 98) t (by decide)]; rfl
theorem flush2_out (t : Fin cfg2.N) : (cfg2.win 3).flush t = true ↔ t.val % 98 = 97 :=
  flush_iff (A := 293) (B := 98) win2_3 (by decide) rfl
    (fun t t' => by rw [idx2_3, idx2_3]; exact ⟨fun h => congrFun h 0, fun h => by rw [h]⟩) t

theorem lt3 (t : Fin cfg3.N) : t.val < 28714 := lt_of_lt_of_eq t.isLt (show cfg3.N = 28714 from N_3)
theorem col3 (t : Fin cfg3.N) : (grid3.coords t 1).val = t.val % 293 := col (A := 98) (B := 293) t
theorem row3 (t : Fin cfg3.N) : (grid3.coords t 0).val = t.val / 293 := row (A := 98) (B := 293) t
theorem reset3_iff (t : Fin cfg3.N) :
    (Scalar.cmpi .ne (Scalar.extui (Scalar.cmpi .eq (BitVec.ofNat 32 (grid3.coords t 1).val) 0#32)) 0#32) = 1#1 ↔ t.val % 293 = 0 :=
  col_word_iff (A := 98) (B := 293) t 0 (by decide) (by decide)
theorem last3_iff (t : Fin cfg3.N) : k3_cond2 (grid3.coords t) = 1#1 ↔ t.val % 293 = 292 :=
  col_word_iff (A := 98) (B := 293) t 292 (by decide) (by decide)
theorem idx3_5 (t : Fin cfg3.N) : win3_5.index t = ![t.val / 293, 0] := by
  show cc3_transform_5 (grid3.coords t) = _
  unfold cc3_transform_5; dsimp only
  rw [toNat_row (A := 98) (B := 293) t (by decide)]; rfl
theorem flush3_out (t : Fin cfg3.N) : (cfg3.win 5).flush t = true ↔ t.val % 293 = 292 :=
  flush_iff (A := 98) (B := 293) win3_5 (by decide) rfl
    (fun t t' => by rw [idx3_5, idx3_5]; exact ⟨fun h => congrFun h 0, fun h => by rw [h]⟩) t

end Cert.Kernel.Sched
-- ==== Proof.K.G2Base.lean ====
import proofs.«421167_j1614907703321_1_alg».proof.Proof.Gen.Kernel.Launch
import proofs.«421167_j1614907703321_1_alg».proof.Proof.Gen.Kernel.Skeleton
import proofs.«421167_j1614907703321_1_alg».proof.Proof.K.Sched2
import proofs.«421167_j1614907703321_1_alg».proof.Proof.ViewLib
import Idealize.ShloMosaic.Lib.Tactic

noncomputable section

namespace Cert.Kernel.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, read at the contents `V` the region starts from. -/
noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The reduction coordinate is at its first value. -/
abbrev condReset (i : grid2.Coords) : Prop := (Scalar.cmpi .ne (Scalar.extui (Scalar.cmpi .eq (BitVec.ofNat 32 (i 1).val) 0#32)) 0#32) = 1#1

/-- The reduction coordinate is at its last value. -/
abbrev condOut (i : grid2.Coords) : Prop := k2_cond2 i = 1#1

theorem lt_N (t : Fin cfg2.N) : t.val < 28714 := Sched.lt2 t

/-- The output window is written exactly where the reduction ends. -/
theorem out_idle (i : grid2.Coords) (h : ¬condOut i) : cfg2.idle 3 i = true := congrArg not (beq_false_of_ne h)
theorem out_live (i : grid2.Coords) (h : condOut i) : cfg2.idle 3 i = false := congrArg not (beq_iff_eq.mpr h)
theorem out_noFlush (t : Fin cfg2.N) (h : ¬condOut (grid2.coords t)) : (cfg2.win 3).flush t = false :=
  Bool.eq_false_iff.mpr fun hf => h ((Sched.last2_iff t).mpr ((Sched.flush2_out t).mp hf))

/-- Each window's current buffer at point `t`, whole. -/
abbrev ms0 (t : Fin cfg2.N) : Memref sig .tc .vmem S2048 .i32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S512 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)

/-- The accumulator. -/
abbrev scM : Memref sig .tc .vmem S2048x128 .f32 := Memref.whole cc2_scratch0
theorem scM_whole : (scM).IsWhole := Memref.isWhole_whole _

/-- The body at point `t`, on the windows' current buffers and the accumulator. -/
abbrev bodyAt (t : Fin cfg2.N) : Prog (TpuEff nD τ sig (Elt F) Λ₀ .tc) PUnit :=
  cc2__gather_kernel (grid2.coords t) (ms0 t) (hs0 t) (ms1 t) (hs1 t) (ms2 t) (hs2 t) (ms3 t) (hs3 t) scM scM_whole

abbrev restBut (c : Dev nD) : sProp 𝕄 :=
  Pipeline.scopedRestBut (Ix := Unit) (Name := ℕ) (U := UR sig nD τ) (Lvl := ℕ) (Val := Elt F) spec2 c [cc2_scratch0]

/-- The region invariant is the accumulator at some contents beside what the region leaves unopened. -/
theorem PhiA_eq (c : Dev nD) :
    (Pipeline.ΦA spec2 c : sProp 𝕄)
      = iprop(iprop(iprop((∃ d, owns (c : Thread nD τ) scM fullShare d)) ∗ restBut (F := F) c) ∗ (∃ r, prngReg c r)) := by
  unfold Pipeline.ΦA; rw [scopedRest2_split]; simp only [scM, owns_whole]; try rfl

end Cert.Kernel.G2

end
-- ==== Proof.K.G2RunA.lean ====
import proofs.«421167_j1614907703321_1_alg».proof.Proof.K.G2Base

noncomputable section

namespace Cert.Kernel.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Gcn.ViewLib

variable {F : FTy → Type} [FloatOps F]

local notation "𝕄" => MT nD τ sig Unit (Elt F) ℕ (UR sig nD τ) ℕ

section Run

variable (c : Dev nD) (i : grid2.Coords)
    {arg2 : Memref sig .tc .vmem S2048 .i32} (harg2 : arg2.IsWhole)
    {arg3 : Memref sig .tc .vmem S512x128 .f32} (harg3 : arg3.IsWhole)
    {arg4 : Memref sig .tc .vmem S512 .f32} (harg4 : arg4.IsWhole)
    {arg5 : Memref sig .tc .vmem S2048x128 .f32} (harg5 : arg5.IsWhole)
    {arg6 : Memref sig .tc .vmem S2048x128 .f32} (harg6 : arg6.IsWhole)
    (x0 : Vec F S2048 .i32) (x1 : Vec F S512x128 .f32) (x2 : Vec F S512 .f32) (y s : Vec F S2048x128 .f32)

/-- The accumulator's update by the three input blocks: of the zero block where the reduction starts, else of what it held. -/
noncomputable def accNext : Vec F S2048x128 .f32 := k2_pay2 i x0 x2 x1 (if condReset i then k2_pay1 else s)

set_option maxHeartbeats 1000000 in
/-- In each of the four cases the loads and stores run in order; every store is through the whole rectangle, so the last one decides what is read back. -/
theorem run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (if condOut i then accNext i x0 x1 x2 s else y)
            ∗ owns (c : Thread nD τ) arg6 fullShare (accNext i x0 x1 x2 s)) -∗ K ⟨⟩))
      ⊢ wp frame (wpE (defs₀ (F := F)) Variants.none c none) E (cc2__gather_kernel i arg2 harg2 arg3 harg3 arg4 harg4 arg5 harg5 arg6 harg6) K := by
  unfold accNext
  by_cases hc0 : condReset i <;> by_cases hc2 : condOut i <;>
    (first | rw [if_pos hc0] | rw [if_neg hc0]) <;> (first | rw [if_pos hc2] | rw [if_neg hc2]) <;>
    (simp only [cc2__gather_kernel_eq_skeleton]; unfold cc2__gather_kernel_skel owns
     iintro ⟨⟨%f0, %hf0, H0⟩, ⟨%f1, %hf1, H1⟩, ⟨%f2, %hf2, H2⟩, ⟨%f3, %hf3, H3⟩, ⟨%fs, %hfs, HS⟩, Hk⟩
     obtain rfl := harg2.eq_unread hf0; obtain rfl := harg3.eq_unread hf1; obtain rfl := harg4.eq_unread hf2
     obtain rfl := harg5.eq_unread hf3; obtain rfl := harg6.eq_unread hfs
     sl_exec (disch := first | exact hc0 | exact hc2)
     sl_step
     iapply Hk
     isplitl [H0]; · iexists _; iframe H0; ipureintro; exact hf0
     isplitl [H1]; · iexists _; iframe H1; ipureintro; exact hf1
     isplitl [H2]; · iexists _; iframe H2; ipureintro; exact hf2
     isplitl [H3] <;> iexists _ <;> iframe <;> ipureintro <;> sl_unfold_words <;>
       simp only [View.readAt_eq_ld, Memref.IsWhole.read_unread, View.ld_unit_zero (S := S2048) hzVec, View.ld_unit_zero (S := S512) hzVec,
         View.ld_unit_zero (S := S512x128) hzMat, View.ld_unit_zero (S := S2048x128) hzMat, readCov_cons_unit_zero (sh := S2048x128) _ hzMat, read_writes_unit_zero (sh := S2048x128) _ _ hzMat])

end Run

end Cert.Kernel.G2

end
-- ==== Proof.K.G2Frame.lean ====
import proofs.«421167_j1614907703321_1_alg».proof.Proof.K.G2RunA

noncomputable section

namespace Cert.Kernel.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the updates along its row of the grid so far, from the zero block. -/
noncomputable def accAt (c : Dev nD) : (n : ℕ) → n < cfg2.N → Vec F S2048x128 .f32
  | 0, hn => k2_pay2 (grid2.coords ⟨0, hn⟩) (iblk V c 0 ⟨0, hn⟩) (iblk V c 2 ⟨0, hn⟩) (iblk V c 1 ⟨0, hn⟩) (k2_pay1 (F := F))
  | n + 1, hn =>
    if (n + 1) % 98 = 0 then
      k2_pay2 (grid2.coords ⟨n + 1, hn⟩) (iblk V c 0 ⟨n + 1, hn⟩) (iblk V c 2 ⟨n + 1, hn⟩) (iblk V c 1 ⟨n + 1, hn⟩) (k2_pay1 (F := F))
    else
      k2_pay2 (grid2.coords ⟨n + 1, hn⟩) (iblk V c 0 ⟨n + 1, hn⟩) (iblk V c 2 ⟨n + 1, hn⟩) (iblk V c 1 ⟨n + 1, hn⟩) (accAt c n (Nat.lt_of_succ_lt hn))

/-- Where the body stores the output, it stores the accumulator. -/
noncomputable def outAt (c : Dev nD) : (n : ℕ) → n < cfg2.N → Vec F S2048x128 .f32 :=
  fun n hn => accAt V c n hn

theorem accAt_first (c : Dev nD) (t : Fin cfg2.N) (h : t.val % 98 = 0) :
    accAt V c t.val t.isLt = k2_pay2 (grid2.coords t) (iblk V c 0 t) (iblk V c 2 t) (iblk V c 1 t) (k2_pay1 (F := F)) := by
  obtain ⟨_ | n, hn⟩ := t
  exacts [rfl, if_pos h]

theorem accAt_next (c : Dev nD) (t : Fin cfg2.N) (h : ¬ t.val % 98 = 0) :
    accAt V c t.val t.isLt = k2_pay2 (grid2.coords t) (iblk V c 0 t) (iblk V c 2 t) (iblk V c 1 t) (accAt V c (t.val - 1) (Nat.lt_of_le_of_lt (Nat.sub_le _ _) t.isLt)) := by
  obtain ⟨_ | n, hn⟩ := t
  exacts [absurd (Nat.zero_mod _) h, if_neg h]

theorem outAt_last (c : Dev nD) (t : Fin cfg2.N) (h : t.val % 98 = 97) : outAt V c t.val t.isLt = accAt V c t.val t.isLt := rfl

/-- Both cases of the recursion are one step of `accNext`, which is what the body computes. -/
theorem accAt_step (c : Dev nD) (t : Fin cfg2.N) (s : Vec F S2048x128 .f32)
    (hs : t.val ≠ 0 → s = accAt V c (t.val - 1) (Nat.lt_of_le_of_lt (Nat.sub_le _ _) t.isLt)) :
    accNext (grid2.coords t) (iblk V c 0 t) (iblk V c 1 t) (iblk V c 2 t) s = accAt V c t.val t.isLt := by
  unfold accNext
  by_cases h : t.val % 98 = 0
  · rw [if_pos ((Sched.reset2_iff t).mpr h), accAt_first V c t h]
  · rw [if_neg (mt (Sched.reset2_iff t).mp h), accAt_next V c t h, hs fun e => h (by rw [e])]

/-- The invariant names the accumulator's contents from the first point on; before it they are arbitrary. -/
noncomputable def PhiS (c : Dev nD) (n : ℕ) (hn : n ≤ cfg2.N) : sProp 𝕄 :=
  iprop(iprop(iprop(∃ s, ⌜∀ h : n ≠ 0, s = accAt V c (n - 1) (by omega)⌝ ∗ owns (c : Thread nD τ) scM fullShare s) ∗ restBut (F := F) c) ∗ (∃ r, prngReg c r))

/-- The region's proof data over any entry contents `V`. -/
noncomputable def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem dat_A (c : Dev nD) (w : Fin cfg2.W) : (dat V c).A w = V c (Pipeline.arrRef spec2 w) := rfl
theorem dat_share (c : Dev nD) : ∀ w, (dat V c).share w = fullShare := (dat V c).share_full fun _ => rfl
theorem dat_owed (c : Dev nD) (t) : (dat V c).owed t = 0 := rfl
theorem dat_after_in0 (c : Dev nD) (t : Fin cfg2.N) : (dat V c).after 0 t = iblk V c 0 t := rfl
theorem dat_after_in1 (c : Dev nD) (t : Fin cfg2.N) : (dat V c).after 1 t = iblk V c 1 t := rfl
theorem dat_after_in2 (c : Dev nD) (t : Fin cfg2.N) : (dat V c).after 2 t = iblk V c 2 t := rfl
theorem dat_after_out (c : Dev nD) (t : Fin cfg2.N) : (dat V c).after 3 t = outAt V c t.val t.isLt := rfl

/-- Every point is live for an input window, and what the body leaves there is the window's block. -/
theorem before0 (c : Dev nD) (t : Fin cfg2.N) (d) : (dat V c).before 0 t d = iblk V c 0 t :=
  (dat V c).before_in_eq_fetched 0 rfl (fun _ => rfl) (fun _ _ _ => rfl) (fun _ => rfl) t d
theorem before1 (c : Dev nD) (t : Fin cfg2.N) (d) : (dat V c).before 1 t d = iblk V c 1 t :=
  (dat V c).before_in_eq_fetched 1 rfl (fun _ => rfl) (fun _ _ _ => rfl) (fun _ => rfl) t d
theorem before2 (c : Dev nD) (t : Fin cfg2.N) (d) : (dat V c).before 2 t d = iblk V c 2 t :=
  (dat V c).before_in_eq_fetched 2 rfl (fun _ => rfl) (fun _ _ _ => rfl) (fun _ => rfl) t d

/-- The two shapes of the output window's post, by whether the reduction ends at the point. -/
theorem leaves_out (c : Dev nD) (t : Fin cfg2.N) (d) :
    owns (c : Thread nD τ) (ms3 t) fullShare (if condOut (grid2.coords t) then accAt V c t.val t.isLt else (dat V c).before 3 t d)
      ⊢ (dat V c).leavesExact 3 t := by
  by_cases h : condOut (grid2.coords t)
  · rw [if_pos h]; unfold Dat.leavesExact; rw [out_live _ h]; exact .rfl
  · rw [if_neg h, Dat.leavesExact_idle _ 3 t (out_idle _ h) (out_noFlush t h)]
    iintro H; iexists d; iexact H

/-- One use of `run`: the invariant lends the accumulator, and `accAt_step` names what comes back. -/
theorem sound_body (c : Dev nD) (t : Fin cfg2.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt (F := F) t) (fun _ =>
        iprop(PhiS V c (t.val + 1) t.isLt ∗ (dat V c).owesAt () t.castSucc
          ∗ owns (c : Thread nD τ) (ms0 t) fullShare (iblk V c 0 t) ∗ owns (c : Thread nD τ) (ms1 t) fullShare (iblk V c 1 t)
          ∗ owns (c : Thread nD τ) (ms2 t) fullShare (iblk V c 2 t) ∗ (dat V c).leavesExact 3 t)) := by
  unfold PhiS bodyAt
  simp only [before0, before1, before2]
  iintro ⟨⟨⟨⟨%s, %hs, HS⟩, HR⟩, Hg⟩, Ho, ⟨%d0, H0⟩, ⟨%d1, H1⟩, ⟨%d2, H2⟩, ⟨%d3, H3⟩⟩
  iapply (run c (grid2.coords t) (hs0 t) (hs1 t) (hs2 t) (hs3 t) scM_whole (iblk V c 0 t) (iblk V c 1 t) (iblk V c 2 t) _ s Set.univ _)
  iframe H0 H1 H2 H3 HS
  iintro ⟨H0, H1, H2, H3, HS⟩
  rw [accAt_step V c t s hs]
  iframe H0 H1 H2 Ho HR Hg
  isplitl [HS]
  · iexists _; iframe HS; ipureintro; exact fun _ => rfl
  iapply (leaves_out V c t d3); iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [PhiA_eq]; show _ ⊢ PhiS V c 0 (Nat.zero_le _); unfold PhiS
  iintro ⟨⟨⟨%s, HS⟩, HR⟩, Hg⟩
  iframe HR Hg; iexists s; iframe HS; ipureintro; exact fun h => absurd rfl h

theorem hout (c : Dev nD) : (dat V c).Φ (Fin.last cfg2.N) ⊢ Pipeline.ΦA spec2 c := by
  rw [PhiA_eq]; show PhiS V c cfg2.N (Nat.le_refl _) ⊢ _; unfold PhiS
  iintro ⟨⟨⟨%s, -, HS⟩, HR⟩, Hg⟩
  iframe HR Hg; iexists s; iexact HS

end Cert.Kernel.G2

end
-- ==== Proof.K.S3Base.lean ====
import proofs.«421167_j1614907703321_1_alg».proof.Proof.Gen.Kernel.Launch
import proofs.«421167_j1614907703321_1_alg».proof.Proof.Gen.Kernel.Skeleton
import proofs.«421167_j1614907703321_1_alg».proof.Proof.ViewLib
import Idealize.ShloMosaic.Lib.Pipeline.FrameBody
import Idealize.ShloMosaic.Lib.Ring
import Idealize.ShloMosaic.Lib.Tactic

noncomputable section

namespace Cert.Kernel.S3

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel.Gen Gcn.ViewLib

variable {F : FTy → Type} [FloatOps F]

local notation "𝕄" => MT nD τ sig Unit (Elt F) ℕ (UR sig nD τ) ℕ

abbrev cond1_0 (i : grid3.Coords) : Prop :=
  (Scalar.cmpi .ne (Scalar.extui (Scalar.cmpi .eq (BitVec.ofNat 32 (i 1).val) 0#32)) 0#32) = 1#1

abbrev cond1_1 (i : grid3.Coords) : Prop := k3_cond2 i = 1#1

theorem idleAt1_5 (i : grid3.Coords) (h : ¬cond1_1 i) : cfg3.idle 5 i = true := by
  show (!(k3_cond2 i == 1#1)) = true
  rw [beq_eq_false_iff_ne.mpr h]; rfl

theorem liveAt1_5 (i : grid3.Coords) (h : cond1_1 i) : cfg3.idle 5 i = false := by
  show (!(k3_cond2 i == 1#1)) = false
  rw [show k3_cond2 i = 1#1 from h]; rfl

structure Args where
  (m0 : Memref sig .tc .vmem S2048 .i32) (h0 : m0.IsWhole)
  (m1 : Memref sig .tc .vmem S2048x128 .f32) (h1 : m1.IsWhole)
  (m2 : Memref sig .tc .vmem S512 .f32) (h2 : m2.IsWhole)
  (m3 : Memref sig .tc .vmem S128x128 .f32) (h3 : m3.IsWhole)
  (m4 : Memref sig .tc .vmem S128 .f32) (h4 : m4.IsWhole)
  (m5 : Memref sig .tc .vmem S512x128 .f32) (h5 : m5.IsWhole)
  (ms : Memref sig .tc .vmem S512x128 .f32) (hs : ms.IsWhole)

abbrev scM1 : Memref sig .tc .vmem S512x128 .f32 := Memref.whole cc3_scratch0

abbrev argsAt (t : Fin cfg3.N) : Args where
  m0 := win3_0.stage (cfg3.slots t 0)
  h0 := hstage3_0 ((cfg3.slots t 0).cast nbuf3_0)
  m1 := win3_1.stage (cfg3.slots t 1)
  h1 := hstage3_1 ((cfg3.slots t 1).cast nbuf3_1)
  m2 := win3_2.stage (cfg3.slots t 2)
  h2 := hstage3_2 ((cfg3.slots t 2).cast nbuf3_2)
  m3 := win3_3.stage (cfg3.slots t 3)
  h3 := hstage3_3 ((cfg3.slots t 3).cast nbuf3_3)
  m4 := win3_4.stage (cfg3.slots t 4)
  h4 := hstage3_4 ((cfg3.slots t 4).cast nbuf3_4)
  m5 := win3_5.stage (cfg3.slots t 5)
  h5 := hstage3_5 ((cfg3.slots t 5).cast nbuf3_5)
  ms := scM1
  hs := Memref.isWhole_whole _

/-- The five inputs owned at their contents, beside `Q`. -/
def Args.ins (a : Args) (c : Dev nD) (x0 : Vec F S2048 .i32) (x1 : Vec F S2048x128 .f32) (x2 : Vec F S512 .f32) (x3 : Vec F S128x128 .f32) (x4 : Vec F S128 .f32) (Q : sProp 𝕄) : sProp 𝕄 :=
  iprop(owns (c : Thread nD τ) a.m0 fullShare x0 ∗ owns (c : Thread nD τ) a.m1 fullShare x1 ∗ owns (c : Thread nD τ) a.m2 fullShare x2 ∗ owns (c : Thread nD τ) a.m3 fullShare x3 ∗ owns (c : Thread nD τ) a.m4 fullShare x4 ∗ Q)

abbrev Args.body (a : Args) (i : grid3.Coords) : Prog (TpuEff nD τ sig (Elt F) Λ₀ .tc) PUnit :=
  cc3__scatter_kernel i a.m0 a.h0 a.m1 a.h1 a.m2 a.h2 a.m3 a.h3 a.m4 a.h4 a.m5 a.h5 a.ms a.hs

/-- The body at coordinates `i` on the memrefs `a` runs from `P` to `Q`. -/
def Runs (c : Dev nD) (i : grid3.Coords) (a : Args) (P Q : sProp 𝕄) : Prop :=
  ∀ (E : Set ℕ) (K : PUnit → sProp 𝕄), iprop(P ∗ (Q -∗ K ⟨⟩)) ⊢ wp frame (wpE (defs₀ (F := F)) Variants.none c none) E (a.body i) K

abbrev restBut1 (c : Dev nD) : sProp 𝕄 :=
  Pipeline.scopedRestBut (Ix := Unit) (Name := ℕ) (U := UR sig nD τ) (Lvl := ℕ) (Val := Elt F) spec3 c [cc3_scratch0]

theorem PhiA1_eq (c : Dev nD) :
    (Pipeline.ΦA spec3 c : sProp 𝕄)
      = iprop(iprop(iprop((∃ d, owns (c : Thread nD τ) scM1 fullShare d)) ∗ restBut1 (F := F) c) ∗ (∃ r, prngReg c r)) := by
  unfold Pipeline.ΦA; rw [scopedRest3_split]; simp only [scM1, owns_whole]; try rfl

/-- What the accumulator holds after the body: the point's contribution added to the zero block where the reduction coordinate is 0, else to `xs`. -/
def accNext (i : grid3.Coords) (x0 : Vec F S2048 .i32) (x1 : Vec F S2048x128 .f32) (xs : Vec F S512x128 .f32) : Vec F S512x128 .f32 :=
  k3_pay2 i x0 x1 (if cond1_0 i then k3_pay1 (F := F) else xs)

end Cert.Kernel.S3

end
-- ==== Proof.K.S3RunA.lean ====
import proofs.«421167_j1614907703321_1_alg».proof.Proof.K.S3Base

noncomputable section

namespace Cert.Kernel.S3

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.Kernel.Gen Gcn.ViewLib

variable {F : FTy → Type} [FloatOps F]

local notation "𝕄" => MT nD τ sig Unit (Elt F) ℕ (UR sig nD τ) ℕ

set_option maxHeartbeats 1000000 in
/-- The body leaves the accumulator at `accNext`, and writes the output block from it where the reduction coordinate is the last. -/
theorem run1 (c : Dev nD) (i : grid3.Coords) (a : Args)
    (x0 : Vec F S2048 .i32) (x1 : Vec F S2048x128 .f32) (x2 : Vec F S512 .f32) (x3 : Vec F S128x128 .f32) (x4 : Vec F S128 .f32) (xs x5 : Vec F S512x128 .f32) :
    Runs c i a (a.ins c x0 x1 x2 x3 x4 iprop(owns (c : Thread nD τ) a.m5 fullShare x5 ∗ owns (c : Thread nD τ) a.ms fullShare xs))
      (a.ins c x0 x1 x2 x3 x4 iprop(owns (c : Thread nD τ) a.m5 fullShare (if cond1_1 i then k3_pay3 x2 (accNext i x0 x1 xs) x3 x4 else x5)
        ∗ owns (c : Thread nD τ) a.ms fullShare (accNext i x0 x1 xs))) := by
  obtain ⟨m0, h0, m1, h1, m2, h2, m3, h3, m4, h4, m5, h5, ms, hs⟩ := a
  unfold Runs Args.ins Args.body accNext
  intro E K
  simp only [owns_unread c h0, owns_unread c h1, owns_unread c h2, owns_unread c h3, owns_unread c h4, cc3__scatter_kernel_eq_skeleton]
  unfold cc3__scatter_kernel_skel owns
  iintro ⟨⟨H0, H1, H2, H3, H4, ⟨%f5, %hf5, H5⟩, ⟨%fs, %hfs, HS⟩⟩, Hk⟩
  obtain rfl := h5.eq_unread hf5
  obtain rfl := hs.eq_unread hfs
  by_cases hc0 : cond1_0 i <;> by_cases hc1 : cond1_1 i <;>
    (first | rw [if_pos hc0] | rw [if_neg hc0]) <;> (first | rw [if_pos hc1] | rw [if_neg hc1])
  all_goals
    sl_exec (disch := first | exact hc0 | exact hc1)
    sl_step
    iapply Hk
    iframe H0 H1 H2 H3 H4
    isplitl [H5]
    · iexists _; isplitr; swap; · iexact H5
      ipureintro
      first
        | exact h5.read_unread _
        | (sl_unfold_words; rw [read_writes_unit_zero m5.view _ hzMat]; simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat])
    iexists _; isplitr; swap; · iexact HS
    ipureintro
    sl_unfold_words
    rw [read_writes_unit_zero ms.view _ hzMat]
    simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat]

end Cert.Kernel.S3

end
-- ==== Proof.K.S3Frame.lean ====
import proofs.«421167_j1614907703321_1_alg».proof.Proof.K.S3RunA
import proofs.«421167_j1614907703321_1_alg».proof.Proof.K.Sched2
import Idealize.ShloMosaic.Lib.Pipeline.Value

noncomputable section

namespace Cert.Kernel.S3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def accAt (c : Dev nD) : (n : ℕ) → n < cfg3.N → Vec F S512x128 .f32
  | 0, hn => k3_pay2 (grid3.coords ⟨0, hn⟩) (iblk V c 0 ⟨0, hn⟩) (iblk V c 1 ⟨0, hn⟩) (k3_pay1 (F := F))
  | n + 1, hn =>
    if (n + 1) % 293 = 0 then
      k3_pay2 (grid3.coords ⟨n + 1, hn⟩) (iblk V c 0 ⟨n + 1, hn⟩) (iblk V c 1 ⟨n + 1, hn⟩) (k3_pay1 (F := F))
    else
      k3_pay2 (grid3.coords ⟨n + 1, hn⟩) (iblk V c 0 ⟨n + 1, hn⟩) (iblk V c 1 ⟨n + 1, hn⟩) (accAt c n (Nat.lt_of_succ_lt hn))

noncomputable def outAt (c : Dev nD) : (n : ℕ) → n < cfg3.N → Vec F S512x128 .f32 :=
  fun n hn => k3_pay3 (iblk V c 2 ⟨n, hn⟩) (accAt V c n hn) (iblk V c 3 ⟨n, hn⟩) (iblk V c 4 ⟨n, hn⟩)

theorem accAt_first (c : Dev nD) (t : Fin cfg3.N) (h : t.val % 293 = 0) :
    accAt V c t.val t.isLt = k3_pay2 (grid3.coords t) (iblk V c 0 t) (iblk V c 1 t) (k3_pay1 (F := F)) := by
  obtain ⟨n, hn⟩ := t
  cases n with
  | zero => rfl
  | succ n => exact (if_pos h).trans rfl

theorem accAt_next (c : Dev nD) (t : Fin cfg3.N) (h : ¬ t.val % 293 = 0) :
    accAt V c t.val t.isLt = k3_pay2 (grid3.coords t) (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

theorem outAt_last (c : Dev nD) (t : Fin cfg3.N) (h : t.val % 293 = 292) :
    outAt V c t.val t.isLt = k3_pay3 (iblk V c 2 t) (accAt V c t.val t.isLt) (iblk V c 3 t) (iblk V c 4 t) := rfl

/-- The invariant before position `n`: the accumulator at what position `n - 1` left (at anything before position 0). -/
noncomputable def PhiS (c : Dev nD) : (n : ℕ) → n ≤ cfg3.N → sProp 𝕄
  | 0, _ => Pipeline.ΦA spec3 c
  | n + 1, hn => iprop(iprop(owns (c : Thread nD τ) scM1 fullShare (accAt V c n hn) ∗ restBut1 (F := F) c) ∗ (∃ r, prngReg c r))

theorem PhiS_pos (c : Dev nD) (n : ℕ) (h : n ≤ cfg3.N) (hz : n ≠ 0) :
    PhiS V c n h = iprop(iprop(owns (c : Thread nD τ) scM1 fullShare (accAt V c (n - 1) (by omega)) ∗ restBut1 (F := F) c) ∗ (∃ r, prngReg c r)) := by
  cases n with
  | zero => exact absurd rfl hz
  | succ n => rfl

/-- At every position the invariant gives back what the call was handed: the accumulator's contents are forgotten. -/
theorem PhiS_out (c : Dev nD) (n : ℕ) (h : n ≤ cfg3.N) : PhiS V c n h ⊢ Pipeline.ΦA spec3 c := by
  cases n with
  | zero => exact Idealize.SL.BI.Entails.refl _
  | succ n =>
    rw [PhiS, PhiA1_eq]
    iintro ⟨⟨HS, Hr⟩, Hg⟩
    iframe Hr Hg
    iexists _; iexact HS

noncomputable def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t.val t.isLt
  Φ t := PhiS V c t.val (Nat.le_of_lt_succ t.isLt)
  q _ := fullShare
  owed _ := 0

theorem dat_A (c : Dev nD) (w : Fin cfg3.W) : (dat V c).A w = V c (Pipeline.arrRef spec3 w) := by
  dsimp only [dat]
theorem dat_share (c : Dev nD) : ∀ w, (dat V c).share w = fullShare := (dat V c).share_full fun _ => rfl
theorem dat_owed (c : Dev nD) (t) : (dat V c).owed t = 0 := rfl

theorem dat_after_in0 (c : Dev nD) (t : Fin cfg3.N) : (dat V c).after 0 t = iblk V c 0 t := by dsimp only [dat]
theorem dat_after_in1 (c : Dev nD) (t : Fin cfg3.N) : (dat V c).after 1 t = iblk V c 1 t := by dsimp only [dat]
theorem dat_after_in2 (c : Dev nD) (t : Fin cfg3.N) : (dat V c).after 2 t = iblk V c 2 t := by dsimp only [dat]
theorem dat_after_in3 (c : Dev nD) (t : Fin cfg3.N) : (dat V c).after 3 t = iblk V c 3 t := by dsimp only [dat]
theorem dat_after_in4 (c : Dev nD) (t : Fin cfg3.N) : (dat V c).after 4 t = iblk V c 4 t := by dsimp only [dat]
theorem dat_after_out (c : Dev nD) (t : Fin cfg3.N) : (dat V c).after 5 t = outAt V c t.val t.isLt := by dsimp only [dat]

/-- Before the body at any point each input holds its block there. -/
theorem before1_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg3.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg3.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg3.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg3.N) (d) : (dat V c).before 4 t d = iblk V c 4 t :=
  ((dat V c).before_in_eq_fetched 4 rfl (fun _ => rfl) (fun _ _ _ => rfl) (fun _ => rfl) t d).trans rfl

theorem leaves1_5 (c : Dev nD) (t : Fin cfg3.N) (h1 : cond1_1 (grid3.coords t)) :
    (dat V c).leavesExact 5 t = owns (c : Thread nD τ) (argsAt t).m5 fullShare (outAt V c t.val t.isLt) := by
  rw [← dat_after_out V c t]; unfold Dat.leavesExact; rw [liveAt1_5 (grid3.coords t) h1]

/-- The body at any point: the point's position on the reduction axis picks the run, and the invariant carries the accumulator from point to point. -/
theorem sound_body (c : Dev nD) (t : Fin cfg3.N) :
    iprop(PhiS V c t.val (Nat.le_of_lt t.isLt) ∗ (dat V c).owesAt () t.castSucc
      ∗ (∃ d, owns (c : Thread nD τ) (argsAt t).m0 fullShare ((dat V c).before 0 t d))
      ∗ (∃ d, owns (c : Thread nD τ) (argsAt t).m1 fullShare ((dat V c).before 1 t d))
      ∗ (∃ d, owns (c : Thread nD τ) (argsAt t).m2 fullShare ((dat V c).before 2 t d))
      ∗ (∃ d, owns (c : Thread nD τ) (argsAt t).m3 fullShare ((dat V c).before 3 t d))
      ∗ (∃ d, owns (c : Thread nD τ) (argsAt t).m4 fullShare ((dat V c).before 4 t d))
      ∗ (∃ d, owns (c : Thread nD τ) (argsAt t).m5 fullShare ((dat V c).before 5 t d)))
    ⊢ wp frame (wpE (defs₀ (F := F)) Variants.none c none) Set.univ ((argsAt t).body (grid3.coords t)) fun _ =>
      iprop(PhiS V c (t.val + 1) t.isLt ∗ (dat V c).owesAt () t.castSucc
        ∗ (argsAt t).ins c (iblk V c 0 t) (iblk V c 1 t) (iblk V c 2 t) (iblk V c 3 t) (iblk V c 4 t) ((dat V c).leavesExact 5 t)) := by
  simp only [before1_0, before1_1, before1_2, before1_3, before1_4]
  rw [PhiS]
  unfold Args.ins
  have hr := Sched.reset3_iff t
  have hl := Sched.last3_iff t
  by_cases h0 : t.val % 293 = 0
  case' pos =>
    have hc1 : ¬cond1_1 (grid3.coords t) := fun h => by have := hl.mp h; omega
    rw [accAt_first V c t h0, Dat.leavesExact_idle (dat V c) 5 t (idleAt1_5 _ hc1) (Bool.eq_false_iff.mpr fun hf => hc1 (hl.mpr ((Sched.flush3_out t).mp hf)))]
    refine (sep_mono_left (PhiS_out V c _ _)).trans ?_
    rw [PhiA1_eq]
    iintro ⟨⟨⟨⟨%xs, HS⟩, Hr⟩, Hg⟩, Ho, ⟨%d0, H0⟩, ⟨%d1, H1⟩, ⟨%d2, H2⟩, ⟨%d3, H3⟩, ⟨%d4, H4⟩, ⟨%d5, H5⟩⟩
    have R := run1 c (grid3.coords t) (argsAt t) (iblk V c 0 t) (iblk V c 1 t) (iblk V c 2 t) (iblk V c 3 t) (iblk V c 4 t) xs ((dat V c).before 5 t d5)
    unfold Runs Args.ins accNext at R
    rw [if_pos (hr.mpr h0), if_neg hc1] at R
  case' neg =>
    have hc0 : ¬cond1_0 (grid3.coords t) := fun h => h0 (hr.mp h)
    rw [accAt_next V c t h0, PhiS_pos V c _ _ (fun e => h0 (by rw [e]))]
    by_cases h1 : t.val % 293 = 292
    case' pos => rw [leaves1_5 V c t (hl.mpr h1), outAt_last V c t h1, accAt_next V c t h0]
    case' neg => rw [Dat.leavesExact_idle (dat V c) 5 t (idleAt1_5 _ fun h => h1 (hl.mp h)) (Bool.eq_false_iff.mpr fun hf => h1 ((Sched.flush3_out t).mp hf))]
    all_goals
      iintro ⟨⟨⟨HS, Hr⟩, Hg⟩, Ho, ⟨%d0, H0⟩, ⟨%d1, H1⟩, ⟨%d2, H2⟩, ⟨%d3, H3⟩, ⟨%d4, H4⟩, ⟨%d5, H5⟩⟩
      have R := run1 c (grid3.coords t) (argsAt t) (iblk V c 0 t) (iblk V c 1 t) (iblk V c 2 t) (iblk V c 3 t) (iblk V c 4 t) (accAt V c (t.val - 1) (Nat.lt_of_le_of_lt (Nat.sub_le _ _) t.isLt)) ((dat V c).before 5 t d5)
      unfold Runs Args.ins accNext at R
      first
        | rw [if_neg hc0, if_pos (hl.mpr h1)] at R
        | rw [if_neg hc0, if_neg fun h => h1 (hl.mp h)] at R
  all_goals
    iapply R Set.univ _
    iframe H0 H1 H2 H3 H4 H5 HS
    iintro ⟨H0, H1, H2, H3, H4, H5, HS⟩
    iframe HS Hr Hg Ho H0 H1 H2 H3 H4
    first | iexact H5 | (iexists _; iexact H5)

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := Idealize.SL.BI.Entails.refl _

theorem hout (c : Dev nD) : (dat V c).Φ (Fin.last cfg3.N) ⊢ Pipeline.ΦA spec3 c :=
  PhiS_out V c _ (Nat.le_of_lt_succ (Fin.last cfg3.N).isLt)

end Cert.Kernel.S3

end
-- ==== Proof.K.Frames.lean ====
import proofs.«421167_j1614907703321_1_alg».proof.Proof.K.Whole
import proofs.«421167_j1614907703321_1_alg».proof.Proof.K.G0Frame
import proofs.«421167_j1614907703321_1_alg».proof.Proof.K.S1Frame
import proofs.«421167_j1614907703321_1_alg».proof.Proof.K.G2Frame
import proofs.«421167_j1614907703321_1_alg».proof.Proof.K.S3Frame

noncomputable section

namespace Cert.Kernel.Frames

open Cert.Kernel Cert.Kernel.Gen Idealize.ShloMosaic Idealize.ShloMosaic.TcCoe Idealize.SL.Sem

variable {F : FTy → Type} [FloatOps F]

def gather1 : Whole.RegionData (F := F) cfg0 :=
  ⟨G0.dat, fun V => ⟨G0.dat_A V, G0.dat_share V, G0.dat_owed V, fun _ => rfl, G0.body_obligation V, G0.hin V, G0.hout V⟩⟩
def scatter1 : Whole.RegionData (F := F) cfg1 :=
  ⟨S1.dat, fun V => ⟨S1.dat_A V, S1.dat_share V, S1.dat_owed V, fun _ => rfl, S1.body_obligation V, S1.hin V, S1.hout V⟩⟩
def gather2 : Whole.RegionData (F := F) cfg2 :=
  ⟨G2.dat, fun V => ⟨G2.dat_A V, G2.dat_share V, G2.dat_owed V, fun _ => rfl, G2.body_obligation V, G2.hin V, G2.hout V⟩⟩
def scatter2 : Whole.RegionData (F := F) cfg3 :=
  ⟨S3.dat, fun V => ⟨S3.dat_A V, S3.dat_share V, S3.dat_owed V, fun _ => rfl, S3.body_obligation V, S3.hin V, S3.hout V⟩⟩

variable (m : (ℓ : Loc nD τ sig) → Buf (Elt F) ℓ) (ρ : Dev nD → PrngReg)

/-- Core c's unscoped buffers when @main returns. -/
abbrev atEnd (c : Dev nD) : Valuation τ sig (Elt F) := Whole.B13 gather1 scatter1 gather2 scatter2 m c

theorem run : θ_run defs (onTc (τ := τ) (main (F := F))) ⟨m, fun _ => 0, ρ⟩
    (fun r => ∀ c : Dev nD, ∀ b ∈ Pipeline.ucRefs τ sig, r.2.mem (((c : Thread nD τ)).1, b) = atEnd m c b) :=
  Whole.run_all gather1 scatter1 gather2 scatter2 m ρ

/-- The arguments end as launched: each is unscoped and kept. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have arg (b : Ref sig .tc) (hs : ¬ (Proc.devRef .tc b : DevRef τ sig).isScoped) (hk : Whole.Kept b) :
        r.2.mem ((c.tc : Thread nD τ).loc b) = m ((c.tc : Thread nD τ).loc b) :=
      (h c _ (Whole.mem_uc b hs)).trans (Whole.B13_launch gather1 scatter1 gather2 scatter2 m c b hk)
    ⟨arg main_arg0 (by decide) (by decide), arg main_arg1 (by decide) (by decide), arg main_arg2 (by decide) (by decide),
      arg main_arg3 (by decide) (by decide), arg main_arg4 (by decide) (by decide), arg main_arg5 (by decide) (by decide),
      arg main_arg6 (by decide) (by decide)⟩)
    (run m ρ)

end Cert.Kernel.Frames

end
-- ==== Proof.KI.Whole.lean ====
import proofs.«421167_j1614907703321_1_alg».proof.Proof.Gen.KernelIdeal.Regions
import Idealize.ShloMosaic.Lib.Pipeline.FrameSuffix
import Idealize.ShloMosaic.Lib.Pipeline.RegionsLoop

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

/-- Buffer contents, core by core. -/
abbrev EV : Type := (c : Dev nD) → (b : Ref sig .tc) → Buf (Elt F) ((c : Thread nD τ).loc b)

/-- Contents between two items of @main, read reference by reference. -/
abbrev ev (B : Dev nD → Valuation τ sig (Elt F)) : EV (F := F) := fun c b => B c (Proc.devRef .tc b)

/-- What the composition asks of a region's proof data entered at contents V. -/
structure RegionAt {cfg : Pipeline.Cfg sig Λ₀} (V : EV (F := F))
    (dat : (c : Dev nD) → Dat τ (Elt F) Unit ℕ (UR sig nD τ) ℕ cfg c) : Prop where
  hA : ∀ c w, (dat c).A w = V c (Pipeline.arrRef cfg.spec w)
  hq : ∀ c w, (dat c).share w = fullShare
  how : ∀ c t, (dat c).owed t = 0
  hr : ∀ c, (dat c).recorded 0 = Set.univ
  hb : ∀ c, BodyObligation (dat c) (defs₀ (F := F)) Variants.none () Set.univ
  hin : ∀ c, (Pipeline.ΦA cfg.spec c : sProp 𝕄) ⊢ (dat c).Φ 0
  hout : ∀ c, (dat c).Φ (Fin.last cfg.N) ⊢ (Pipeline.ΦA cfg.spec c : sProp 𝕄)

/-- A region's proof data at any entry contents. -/
structure RegionData (cfg : Pipeline.Cfg sig Λ₀) where
  dat : EV (F := F) → (c : Dev nD) → Dat τ (Elt F) Unit ℕ (UR sig nD τ) ℕ cfg c
  ok : ∀ V, RegionAt V (dat V)

section After

variable {cfg : Pipeline.Cfg sig Λ₀} (dat : (c : Dev nD) → Dat τ (Elt F) Unit ℕ (UR sig nD τ) ℕ cfg c)
  (B : Dev nD → Valuation τ sig (Elt F)) (c : Dev nD) (b : Ref sig .tc)

/-- What a region entered at B leaves: its arrays as written back, every other buffer as entered. -/
def after : Valuation τ sig (Elt F) := Pipeline.withArrays cfg.spec c (B c) fun w => (dat c).arrAt w cfg.N

theorem after_arr (hinj : Function.Injective (Pipeline.arrRef cfg.spec)) (w : Fin cfg.W) :
    after dat B c (Proc.devRef .tc (Pipeline.arrRef cfg.spec w)) = (dat c).arrAt w cfg.N :=
  Pipeline.withArrays_arr cfg.spec hinj c _ _ w

theorem after_keep (hb : ∀ w, Pipeline.arrRef cfg.spec w ≠ b) : after dat B c (Proc.devRef .tc b) = B c (Proc.devRef .tc b) :=
  Pipeline.withArrays_of_ne cfg.spec c _ _ b hb

/-- An input window's array is never written and is read off the entry contents. -/
theorem after_same (h : RegionAt (ev B) dat) (hinj : Function.Injective (Pipeline.arrRef cfg.spec)) (hb : ∀ w, Pipeline.arrRef cfg.spec w = b → (cfg.win w).isOut = false) :
    after dat B c (Proc.devRef .tc b) = B c (Proc.devRef .tc b) := by
  by_cases hw : ∃ w, Pipeline.arrRef cfg.spec w = b
  · obtain ⟨w, rfl⟩ := hw
    exact (after_arr dat B c hinj w).trans (((dat c).arrAt_in w (hb w rfl) _).trans (h.hA c w))
  · exact after_keep dat B c b fun w e => hw ⟨w, e⟩

end After

variable (R0 : RegionData (F := F) cfg0) (R1 : RegionData (F := F) cfg1)
  (R2 : RegionData (F := F) cfg2) (R3 : RegionData (F := F) cfg3)
variable (m : (ℓ : Loc nD τ sig) → Buf (Elt F) ℓ)

abbrev entry0 : EV (F := F) := ev (V8 m)
def B9 : Dev nD → Valuation τ sig (Elt F) := after (R0.dat (entry0 m)) (V8 m)
abbrev entry1 : EV (F := F) := ev (B9 R0 m)
def B10 : Dev nD → Valuation τ sig (Elt F) := after (R1.dat (entry1 R0 m)) (B9 R0 m)
abbrev entry2 : EV (F := F) := ev (B10 R0 R1 m)
def B11 : Dev nD → Valuation τ sig (Elt F) := after (R2.dat (entry2 R0 R1 m)) (B10 R0 R1 m)
abbrev entry3 : EV (F := F) := ev (B11 R0 R1 R2 m)
def B12 : Dev nD → Valuation τ sig (Elt F) := after (R3.dat (entry3 R0 R1 R2 m)) (B11 R0 R1 R2 m)
/-- The contents @main returns at. -/
def B13 (c : Dev nD) : Valuation τ sig (Elt F) := StableHlo.after hostOps4 (B12 R0 R1 R2 R3 m c)

section Frame

variable (c : Dev nD) (b : Ref sig .tc)

theorem B9_arr (w : Fin cfg0.W) :
    B9 R0 m c (Proc.devRef .tc (Pipeline.arrRef spec0 w)) = (R0.dat (entry0 m) c).arrAt w cfg0.N :=
  after_arr _ _ c launch0.win.arr_inj w
theorem B10_arr (w : Fin cfg1.W) :
    B10 R0 R1 m c (Proc.devRef .tc (Pipeline.arrRef spec1 w)) = (R1.dat (entry1 R0 m) c).arrAt w cfg1.N :=
  after_arr _ _ c launch1.win.arr_inj w
theorem B11_arr (w : Fin cfg2.W) :
    B11 R0 R1 R2 m c (Proc.devRef .tc (Pipeline.arrRef spec2 w)) = (R2.dat (entry2 R0 R1 m) c).arrAt w cfg2.N :=
  after_arr _ _ c launch2.win.arr_inj w
theorem B12_arr (w : Fin cfg3.W) :
    B12 R0 R1 R2 R3 m c (Proc.devRef .tc (Pipeline.arrRef spec3 w)) = (R3.dat (entry3 R0 R1 R2 m) c).arrAt w cfg3.N :=
  after_arr _ _ c launch3.win.arr_inj w

theorem B9_same (hb : ∀ w, Pipeline.arrRef spec0 w = b → (cfg0.win w).isOut = false) :
    B9 R0 m c (Proc.devRef .tc b) = V8 m c (Proc.devRef .tc b) :=
  after_same _ _ c b (R0.ok _) launch0.win.arr_inj hb
theorem B10_same (hb : ∀ w, Pipeline.arrRef spec1 w = b → (cfg1.win w).isOut = false) :
    B10 R0 R1 m c (Proc.devRef .tc b) = B9 R0 m c (Proc.devRef .tc b) :=
  after_same _ _ c b (R1.ok _) launch1.win.arr_inj hb
theorem B11_same (hb : ∀ w, Pipeline.arrRef spec2 w = b → (cfg2.win w).isOut = false) :
    B11 R0 R1 R2 m c (Proc.devRef .tc b) = B10 R0 R1 m c (Proc.devRef .tc b) :=
  after_same _ _ c b (R2.ok _) launch2.win.arr_inj hb

/-- The references the eight stretches before the regions write. -/
abbrev hostW : List (Ref sig .tc) :=
  hostOps0_W ++ hostOps0_1_W ++ hostOps0_2_W ++ hostOps0_3_W ++ hostOps0_4_W ++ hostOps0_5_W ++ hostOps0_6_W ++ hostOps0_7_W

/-- A reference none of those stretches writes is entered by the first region as launched. -/
theorem B8_launch (h : b ∉ hostW) :
    V8 m c (Proc.devRef .tc b) = m ((c : Thread nD τ).loc b) := by
  simp only [List.mem_append, not_or] at h
  obtain ⟨⟨⟨⟨⟨⟨⟨h0, h1⟩, h2⟩, h3⟩, h4⟩, h5⟩, h6⟩, h7⟩ := h
  exact (V8_of m c b h7).trans <| (V7_of m c b h6).trans <| (V6_of m c b h5).trans <| (V5_of m c b h4).trans <|
    (V4_of m c b h3).trans <| (V3_of m c b h2).trans <| (V2_of m c b h1).trans (V1_of m c b h0)

theorem B13_main_v15 :
    B13 R0 R1 R2 R3 m c (Proc.devRef .tc main_v15)
      = extractStridedSlice S50000x128 ![0, 0] (B12 R0 R1 R2 R3 m c (Proc.devRef .tc main_v14)) slices_S50176x128_S50000x128_0_0 := by
  show StableHlo.after hostOps4 (B12 R0 R1 R2 R3 m c) (Proc.devRef .tc main_v15) = _
  rw [StableHlo.after_cons, StableHlo.after_nil, StableHlo.unary_result]

/-- No host stretch writes b and no region writes back into it. -/
abbrev Kept : Prop :=
  (b ∉ hostW ∧ b ∉ hostOps4_W)
    ∧ (∀ w, Pipeline.arrRef spec0 w = b → (cfg0.win w).isOut = false)
    ∧ (∀ w, Pipeline.arrRef spec1 w = b → (cfg1.win w).isOut = false)
    ∧ (∀ w, Pipeline.arrRef spec2 w = b → (cfg2.win w).isOut = false)
    ∧ ∀ w, Pipeline.arrRef spec3 w = b → (cfg3.win w).isOut = false

/-- A kept reference ends at its launch contents. -/
theorem B13_launch (h : Kept b) :
    B13 R0 R1 R2 R3 m c (Proc.devRef .tc b) = m ((c : Thread nD τ).loc b) :=
  (StableHlo.after_of_writes_sub hostOps4 _ hostOps4_writes h.1.2).trans <|
    (after_same _ _ c b (R3.ok _) launch3.win.arr_inj h.2.2.2.2).trans <|
    (B11_same R0 R1 R2 m c b h.2.2.2.1).trans <| (B10_same R0 R1 m c b h.2.2.1).trans <|
    (B9_same R0 m c b h.2.1).trans (B8_launch m c b h.1.1)

end Frame

abbrev 𝒱₀ : Variants := Variants.none
abbrev L : GSem nD τ sig → Finset Unit := fun _ => ∅
abbrev lv : GSem nD τ sig → Unit → ℕ := fun _ _ => 0

/-- What a core holds beside its unscoped buffers between items: its generator register, and that it owes nothing. -/
abbrev beside (c : Dev nD) : sProp 𝕄 :=
  iprop((∃ r, prngReg c r) ∗ ∃ W, owes (c : Thread nD τ) (0 : CellTallies nD τ sig Unit) W)

abbrev stateAt (B : Dev nD → Valuation τ sig (Elt F)) (c : Dev nD) : sProp 𝕄 :=
  iprop(StableHlo.held (c : Thread nD τ) (Pipeline.ucRefs τ sig) (B c) ∗ beside c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Protocol

variable {cfg : Pipeline.Cfg sig Λ₀} {c : Dev nD} (dat : Dat τ (Elt F) Unit ℕ (UR sig nD τ) ℕ cfg c)

/-- With no tally and no excluded pair at the first point, owing nothing is owing the first tallies. -/
theorem owes_enter (h0 : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [h0]
  iintro ⟨%W, HO⟩
  iexists W
  isplitr
  · ipureintro; exact fun x _ => Or.inl (by rw [hr]; exact Set.mem_univ x)
  iexact HO

theorem owes_leave (hN : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [hN]
  iintro ⟨%W, -, HO⟩
  iexists W; iexact HO

end Protocol

theorem inv_enter {gr W : Nat} (win : Fin W → Pipeline.WinSpec sig gr) (c : Dev nD) (T : sProp 𝕄) :
    (iprop((∃ r, prngReg c r) ∗ T ∗ Pipeline.scopedRest win c) : sProp 𝕄) ⊢ Pipeline.ΦA win c := by
  unfold Pipeline.ΦA
  iintro ⟨Hp, -, Hs⟩
  isplitl [Hs]; · iexact Hs
  iexact Hp

theorem inv_leave {gr W : Nat} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]; unfold Pipeline.ΦA
  iintro ⟨Hs, Hp⟩
  isplitl [Hp]; · iexact Hp
  isplitr; · iempintro
  iexact Hs

/-- The family of tables is empty, so holding it is holding nothing. -/
theorem noTables (p : Fin 4) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

set_option backward.isDefEq.respectTransparency.types false in
/-- Region `p` as one step of @main's run, from the valuation `B` to the valuation after it. -/
def seg (pd : (p : Fin 4) → (c : Dev nD) → Dat τ (Elt F) Unit ℕ (UR sig nD τ) ℕ (Pipeline.pin (pcfgs (F := F)) adm p) c)
    (p : Fin 4) (lf : Pipeline.LaunchFacts (nD := nD) (τ := τ) cfgs p) (B : Dev nD → Valuation τ sig (Elt F))
    (h : RegionAt (ev B) (pd p)) : Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (h.hb c).loose
  hwaits := Pipeline.hwaits_of_owed_zero _ _ _ _ L lv p h.how
  pre := stateAt B
  post := stateAt (after (pd p) B)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (ev B c)
  hentry c := by
    have hsplit := Pipeline.arrays_of_unscopedBufs (p := p) (pcfgs (F := F)) adm pd lf.win lf.arr_whole c (h.hq c) (ev B c) (h.hA c)
    rw [Pipeline.unscopedBufs_held c (B c)] at hsplit
    iintro ⟨⟨Hub, Hg, HO⟩, -, -⟩
    ihave H := hsplit $$ Hub
    icases H with ⟨Ha, Hrest⟩
    imodintro
    isplitl [Ha]; · iexact Ha
    isplitr; · iapply (noTables p c); iempintro
    isplitl [HO]; · iapply (owes_enter (pd p c) (h.how c 0) (h.hr c)); iexact HO
    isplitl [Hg]; · iexact Hg
    iexact Hrest
  hin c := (inv_enter _ c _).trans (h.hin c)
  hout c := (h.hout c).trans (inv_leave _ c)
  hexit c := by
    have hjoin := Pipeline.unscopedBufs_of_arrays (p := p) (pcfgs (F := F)) adm (Ix := Unit) (Name := ℕ) (U := UR sig nD τ) (Lvl := ℕ)
      lf.win lf.arr_whole c pd (h.hq c) (ev B c) (ev (after (pd p) B) c) ((pd p c).arrAt · _)
      (fun w => (after_arr (pd p) B c lf.win.arr_inj w).symm)
      (fun b hb => after_keep (pd p) B c b fun w e => hb (Finset.mem_image.mpr ⟨w, Finset.mem_univ _, e⟩))
    rw [Pipeline.unscopedBufs_held c (after (pd p) B c)] at hjoin
    iintro ⟨Ha, HO, Hg, Hrest⟩
    imodintro
    isplitl [Ha Hrest]
    · iapply hjoin; isplitl [Ha] <;> iassumption
    isplitl [Hg]; · iexact Hg
    iapply (owes_leave (pd p c) (h.how c _)); iexact HO

/-- Every region's proof data, each at the contents found on its entry. -/
def pdats : (p : Fin 4) → (c : Dev nD) → Dat τ (Elt F) Unit ℕ (UR sig nD τ) ℕ (Pipeline.pin (pcfgs (F := F)) adm p) c
  | ⟨0, _⟩ => R0.dat (entry0 m)
  | ⟨1, _⟩ => R1.dat (entry1 R0 m)
  | ⟨2, _⟩ => R2.dat (entry2 R0 R1 m)
  | ⟨3, _⟩ => R3.dat (entry3 R0 R1 R2 m)

/-- A host stretch from the state at B to the state at B after its operations. -/
abbrev hostFrom (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B beside

set_option backward.isDefEq.respectTransparency.types false in
/-- @main's thirteen items: eight stretches, the four regions, the closing slice. -/
abbrev items : List (Pipeline.Seg (pcfgs (F := F)) adm (pdats R0 R1 R2 R3 m) () defs₀ 𝒱₀ L lv) :=
  [ .host (hostFrom hostOps0 hostOps0_sub hostOps0_fresh (V0 m)),
    .host (hostFrom hostOps0_1 hostOps0_1_sub hostOps0_1_fresh (V1 m)),
    .host (hostFrom hostOps0_2 hostOps0_2_sub hostOps0_2_fresh (V2 m)),
    .host (hostFrom hostOps0_3 hostOps0_3_sub hostOps0_3_fresh (V3 m)),
    .host (hostFrom hostOps0_4 hostOps0_4_sub hostOps0_4_fresh (V4 m)),
    .host (hostFrom hostOps0_5 hostOps0_5_sub hostOps0_5_fresh (V5 m)),
    .host (hostFrom hostOps0_6 hostOps0_6_sub hostOps0_6_fresh (V6 m)),
    .host (hostFrom hostOps0_7 hostOps0_7_sub hostOps0_7_fresh (V7 m)),
    .region (seg _ 0 launch0 (V8 m) (R0.ok _)),
    .region (seg _ 1 launch1 (B9 R0 m) (R1.ok _)),
    .region (seg _ 2 launch2 (B10 R0 R1 m) (R2.ok _)),
    .region (seg _ 3 launch3 (B11 R0 R1 R2 m) (R3.ok _)),
    .host (hostFrom hostOps4 hostOps4_sub hostOps4_fresh (B12 R0 R1 R2 R3 m)) ]

theorem main_run (c : Dev nD) : main (F := F) c = Pipeline.Seg.run (items R0 R1 R2 R3 m) := by
  rw [main_chain c, Pipeline.Seg.run_eq_chain]; rfl

set_option backward.isDefEq.respectTransparency.types false in
/-- Every weakly fair execution of @main terminates with each core's unscoped buffers at B13. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = B13 R0 R1 R2 R3 m c b) :=
  Pipeline.θ_run_regions_kit (pcfgs (F := F)) adm (pdats R0 R1 R2 R3 m) () cellOf_inj emb₁ defs₀ 𝒱₀ L lv m ρ main
    (items R0 R1 R2 R3 m)
    (fun c Q => by rw [main_run R0 R1 R2 R3 m c])
    (by simp only [items, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := stateAt (V0 m))
    (Tₙ := fun c => iprop(StableHlo.held (c : Thread nD τ) (Pipeline.ucRefs τ sig) (B13 R0 R1 R2 R3 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hg, -⟩, -⟩
      imodintro
      isplitl [Hh]; · iexact Hh
      isplitl [Hg]; · iexists _; iexact Hg
      iexists ∅; iexact HO)
    (QY := fun c s => ∀ b ∈ Pipeline.ucRefs τ sig, s.mem (((c : Thread nD τ)).1, b) = B13 R0 R1 R2 R3 m c b)
    (hfin := fun c s' => by
      iintro ⟨⟨Hh, -⟩, HSI⟩
      unfold StableHlo.held
      imodintro
      iapply (pointsTo_read_all (Pipeline.ucRefs τ sig) (fun b => (((c : Thread nD τ)).1, b)) (B13 R0 R1 R2 R3 m c) s')
      isplitl [Hh] <;> iassumption)
    (hQ := fun s h => h)

end Cert.KernelIdeal.Whole

end
-- ==== Proof.KI.Sched.lean ====
import proofs.«421167_j1614907703321_1_alg».proof.Proof.Gen.KernelIdeal.Launch
import proofs.«421167_j1614907703321_1_alg».proof.Proof.Sched

namespace Cert.KernelIdeal.Sched

open Cert.KernelIdeal Cert.KernelIdeal.Gen Idealize.ShloMosaic Gcn.Sched

theorem lt0 (t : Fin cfg0.N) : t.val < 28714 := lt_of_lt_of_eq t.isLt (show cfg0.N = 28714 from N_0)
theorem col0 (t : Fin cfg0.N) : (grid0.coords t 1).val = t.val % 98 := col (A := 293) (B := 98) t
theorem row0 (t : Fin cfg0.N) : (grid0.coords t 0).val = t.val / 98 := row (A := 293) (B := 98) t
theorem reset0_iff (t : Fin cfg0.N) :
    (Scalar.cmpi .ne (Scalar.extui (Scalar.cmpi .eq (BitVec.ofNat 32 (grid0.coords t 1).val) 0#32)) 0#32) = 1#1 ↔ t.val % 98 = 0 :=
  col_word_iff (A := 293) (B := 98) t 0 (by decide) (by decide)
theorem last0_iff (t : Fin cfg0.N) : k0_cond2 (grid0.coords t) = 1#1 ↔ t.val % 98 = 97 :=
  col_word_iff (A := 293) (B := 98) t 97 (by decide) (by decide)
theorem idx0_3 (t : Fin cfg0.N) : win0_3.index t = ![t.val / 98, 0] := by
  show cc0_transform_3 (grid0.coords t) = _
  unfold cc0_transform_3; dsimp only
  rw [toNat_row (A := 293) (B := 98) t (by decide)]; rfl
theorem flush0_out (t : Fin cfg0.N) : (cfg0.win 3).flush t = true ↔ t.val % 98 = 97 :=
  flush_iff (A := 293) (B := 98) win0_3 (by decide) rfl
    (fun t t' => by rw [idx0_3, idx0_3]; exact ⟨fun h => congrFun h 0, fun h => by rw [h]⟩) t

theorem lt1 (t : Fin cfg1.N) : t.val < 28714 := lt_of_lt_of_eq t.isLt (show cfg1.N = 28714 from N_1)
theorem col1 (t : Fin cfg1.N) : (grid1.coords t 1).val = t.val % 293 := col (A := 98) (B := 293) t
theorem row1 (t : Fin cfg1.N) : (grid1.coords t 0).val = t.val / 293 := row (A := 98) (B := 293) t
theorem reset1_iff (t : Fin cfg1.N) :
    (Scalar.cmpi .ne (Scalar.extui (Scalar.cmpi .eq (BitVec.ofNat 32 (grid1.coords t 1).val) 0#32)) 0#32) = 1#1 ↔ t.val % 293 = 0 :=
  col_word_iff (A := 98) (B := 293) t 0 (by decide) (by decide)
theorem last1_iff (t : Fin cfg1.N) : k1_cond2 (grid1.coords t) = 1#1 ↔ t.val % 293 = 292 :=
  col_word_iff (A := 98) (B := 293) t 292 (by decide) (by decide)
theorem idx1_5 (t : Fin cfg1.N) : win1_5.index t = ![t.val / 293, 0] := by
  show cc1_transform_5 (grid1.coords t) = _
  unfold cc1_transform_5; dsimp only
  rw [toNat_row (A := 98) (B := 293) t (by decide)]; rfl
theorem flush1_out (t : Fin cfg1.N) : (cfg1.win 5).flush t = true ↔ t.val % 293 = 292 :=
  flush_iff (A := 98) (B := 293) win1_5 (by decide) rfl
    (fun t t' => by rw [idx1_5, idx1_5]; exact ⟨fun h => congrFun h 0, fun h => by rw [h]⟩) t

end Cert.KernelIdeal.Sched
-- ==== Proof.KI.G0Base.lean ====
import proofs.«421167_j1614907703321_1_alg».proof.Proof.Gen.KernelIdeal.Launch
import proofs.«421167_j1614907703321_1_alg».proof.Proof.Gen.KernelIdeal.Skeleton
import proofs.«421167_j1614907703321_1_alg».proof.Proof.KI.Sched
import proofs.«421167_j1614907703321_1_alg».proof.Proof.ViewLib
import Idealize.ShloMosaic.Lib.Tactic

noncomputable section

namespace Cert.KernelIdeal.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, read at the contents `V` the region starts from. -/
noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The reduction coordinate is at its first value. -/
abbrev condReset (i : grid0.Coords) : Prop := (Scalar.cmpi .ne (Scalar.extui (Scalar.cmpi .eq (BitVec.ofNat 32 (i 1).val) 0#32)) 0#32) = 1#1

/-- The reduction coordinate is at its last value. -/
abbrev condOut (i : grid0.Coords) : Prop := k0_cond2 i = 1#1

theorem lt_N (t : Fin cfg0.N) : t.val < 28714 := Sched.lt0 t

/-- The output window is written exactly where the reduction ends. -/
theorem out_idle (i : grid0.Coords) (h : ¬condOut i) : cfg0.idle 3 i = true := congrArg not (beq_false_of_ne h)
theorem out_live (i : grid0.Coords) (h : condOut i) : cfg0.idle 3 i = false := congrArg not (beq_iff_eq.mpr h)
theorem out_noFlush (t : Fin cfg0.N) (h : ¬condOut (grid0.coords t)) : (cfg0.win 3).flush t = false :=
  Bool.eq_false_iff.mpr fun hf => h ((Sched.last0_iff t).mpr ((Sched.flush0_out t).mp hf))

/-- Each window's current buffer at point `t`, whole. -/
abbrev ms0 (t : Fin cfg0.N) : Memref sig .tc .vmem S2048 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .f32 := win0_3.stage (cfg0.slots t 3)
abbrev hs3 (t : Fin cfg0.N) : (ms3 t).IsWhole := hstage0_3 ((cfg0.slots t 3).cast nbuf0_3)

/-- The accumulator. -/
abbrev scM : Memref sig .tc .vmem S2048x128 .f32 := Memref.whole cc0_scratch0
theorem scM_whole : (scM).IsWhole := Memref.isWhole_whole _

/-- The body at point `t`, on the windows' current buffers and the accumulator. -/
abbrev bodyAt (t : Fin cfg0.N) : Prog (TpuEff nD τ sig (Elt F) Λ₀ .tc) PUnit :=
  cc0__gather_kernel (grid0.coords t) (ms0 t) (hs0 t) (ms1 t) (hs1 t) (ms2 t) (hs2 t) (ms3 t) (hs3 t) scM scM_whole

abbrev restBut (c : Dev nD) : sProp 𝕄 :=
  Pipeline.scopedRestBut (Ix := Unit) (Name := ℕ) (U := UR sig nD τ) (Lvl := ℕ) (Val := Elt F) spec0 c [cc0_scratch0]

/-- The region invariant is the accumulator at some contents beside what the region leaves unopened. -/
theorem PhiA_eq (c : Dev nD) :
    (Pipeline.ΦA spec0 c : sProp 𝕄)
      = iprop(iprop(iprop((∃ d, owns (c : Thread nD τ) scM fullShare d)) ∗ restBut (F := F) c) ∗ (∃ r, prngReg c r)) := by
  unfold Pipeline.ΦA; rw [scopedRest0_split]; simp only [scM, owns_whole]; try rfl

end Cert.KernelIdeal.G0

end
-- ==== Proof.KI.G0RunA.lean ====
import proofs.«421167_j1614907703321_1_alg».proof.Proof.KI.G0Base

noncomputable section

namespace Cert.KernelIdeal.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Gcn.ViewLib

variable {F : FTy → Type} [FloatOps F]

local notation "𝕄" => MT nD τ sig Unit (Elt F) ℕ (UR sig nD τ) ℕ

section Run

variable (c : Dev nD) (i : grid0.Coords)
    {arg2 : Memref sig .tc .vmem S2048 .i32} (harg2 : arg2.IsWhole)
    {arg3 : Memref sig .tc .vmem S512x128 .f32} (harg3 : arg3.IsWhole)
    {arg4 : Memref sig .tc .vmem S512 .f32} (harg4 : arg4.IsWhole)
    {arg5 : Memref sig .tc .vmem S2048x128 .f32} (harg5 : arg5.IsWhole)
    {arg6 : Memref sig .tc .vmem S2048x128 .f32} (harg6 : arg6.IsWhole)
    (x0 : Vec F S2048 .i32) (x1 : Vec F S512x128 .f32) (x2 : Vec F S512 .f32) (y s : Vec F S2048x128 .f32)

/-- The accumulator's update by the three input blocks: of the zero block where the reduction starts, else of what it held. -/
noncomputable def accNext : Vec F S2048x128 .f32 := k0_pay2 i x0 x2 x1 (if condReset i then k0_pay1 else s)

set_option maxHeartbeats 1000000 in
/-- In each of the four cases the loads and stores run in order; every store is through the whole rectangle, so the last one decides what is read back. -/
theorem run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (if condOut i then accNext i x0 x1 x2 s else y)
            ∗ owns (c : Thread nD τ) arg6 fullShare (accNext i x0 x1 x2 s)) -∗ K ⟨⟩))
      ⊢ wp frame (wpE (defs₀ (F := F)) Variants.none c none) E (cc0__gather_kernel i arg2 harg2 arg3 harg3 arg4 harg4 arg5 harg5 arg6 harg6) K := by
  unfold accNext
  by_cases hc0 : condReset i <;> by_cases hc2 : condOut i <;>
    (first | rw [if_pos hc0] | rw [if_neg hc0]) <;> (first | rw [if_pos hc2] | rw [if_neg hc2]) <;>
    (simp only [cc0__gather_kernel_eq_skeleton]; unfold cc0__gather_kernel_skel owns
     iintro ⟨⟨%f0, %hf0, H0⟩, ⟨%f1, %hf1, H1⟩, ⟨%f2, %hf2, H2⟩, ⟨%f3, %hf3, H3⟩, ⟨%fs, %hfs, HS⟩, Hk⟩
     obtain rfl := harg2.eq_unread hf0; obtain rfl := harg3.eq_unread hf1; obtain rfl := harg4.eq_unread hf2
     obtain rfl := harg5.eq_unread hf3; obtain rfl := harg6.eq_unread hfs
     sl_exec (disch := first | exact hc0 | exact hc2)
     sl_step
     iapply Hk
     isplitl [H0]; · iexists _; iframe H0; ipureintro; exact hf0
     isplitl [H1]; · iexists _; iframe H1; ipureintro; exact hf1
     isplitl [H2]; · iexists _; iframe H2; ipureintro; exact hf2
     isplitl [H3] <;> iexists _ <;> iframe <;> ipureintro <;> sl_unfold_words <;>
       simp only [View.readAt_eq_ld, Memref.IsWhole.read_unread, View.ld_unit_zero (S := S2048) hzVec, View.ld_unit_zero (S := S512) hzVec,
         View.ld_unit_zero (S := S512x128) hzMat, View.ld_unit_zero (S := S2048x128) hzMat, readCov_cons_unit_zero (sh := S2048x128) _ hzMat, read_writes_unit_zero (sh := S2048x128) _ _ hzMat])

end Run

end Cert.KernelIdeal.G0

end
-- ==== Proof.KI.G0Frame.lean ====
import proofs.«421167_j1614907703321_1_alg».proof.Proof.KI.G0RunA

noncomputable section

namespace Cert.KernelIdeal.G0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the updates along its row of the grid so far, from the zero block. -/
noncomputable def accAt (c : Dev nD) : (n : ℕ) → n < cfg0.N → Vec F S2048x128 .f32
  | 0, hn => k0_pay2 (grid0.coords ⟨0, hn⟩) (iblk V c 0 ⟨0, hn⟩) (iblk V c 2 ⟨0, hn⟩) (iblk V c 1 ⟨0, hn⟩) (k0_pay1 (F := F))
  | n + 1, hn =>
    if (n + 1) % 98 = 0 then
      k0_pay2 (grid0.coords ⟨n + 1, hn⟩) (iblk V c 0 ⟨n + 1, hn⟩) (iblk V c 2 ⟨n + 1, hn⟩) (iblk V c 1 ⟨n + 1, hn⟩) (k0_pay1 (F := F))
    else
      k0_pay2 (grid0.coords ⟨n + 1, hn⟩) (iblk V c 0 ⟨n + 1, hn⟩) (iblk V c 2 ⟨n + 1, hn⟩) (iblk V c 1 ⟨n + 1, hn⟩) (accAt c n (Nat.lt_of_succ_lt hn))

/-- Where the body stores the output, it stores the accumulator. -/
noncomputable def outAt (c : Dev nD) : (n : ℕ) → n < cfg0.N → Vec F S2048x128 .f32 :=
  fun n hn => accAt V c n hn

theorem accAt_first (c : Dev nD) (t : Fin cfg0.N) (h : t.val % 98 = 0) :
    accAt V c t.val t.isLt = k0_pay2 (grid0.coords t) (iblk V c 0 t) (iblk V c 2 t) (iblk V c 1 t) (k0_pay1 (F := F)) := by
  obtain ⟨_ | n, hn⟩ := t
  exacts [rfl, if_pos h]

theorem accAt_next (c : Dev nD) (t : Fin cfg0.N) (h : ¬ t.val % 98 = 0) :
    accAt V c t.val t.isLt = k0_pay2 (grid0.coords t) (iblk V c 0 t) (iblk V c 2 t) (iblk V c 1 t) (accAt V c (t.val - 1) (Nat.lt_of_le_of_lt (Nat.sub_le _ _) t.isLt)) := by
  obtain ⟨_ | n, hn⟩ := t
  exacts [absurd (Nat.zero_mod _) h, if_neg h]

theorem outAt_last (c : Dev nD) (t : Fin cfg0.N) (h : t.val % 98 = 97) : outAt V c t.val t.isLt = accAt V c t.val t.isLt := rfl

/-- Both cases of the recursion are one step of `accNext`, which is what the body computes. -/
theorem accAt_step (c : Dev nD) (t : Fin cfg0.N) (s : Vec F S2048x128 .f32)
    (hs : t.val ≠ 0 → s = accAt V c (t.val - 1) (Nat.lt_of_le_of_lt (Nat.sub_le _ _) t.isLt)) :
    accNext (grid0.coords t) (iblk V c 0 t) (iblk V c 1 t) (iblk V c 2 t) s = accAt V c t.val t.isLt := by
  unfold accNext
  by_cases h : t.val % 98 = 0
  · rw [if_pos ((Sched.reset0_iff t).mpr h), accAt_first V c t h]
  · rw [if_neg (mt (Sched.reset0_iff t).mp h), accAt_next V c t h, hs fun e => h (by rw [e])]

/-- The invariant names the accumulator's contents from the first point on; before it they are arbitrary. -/
noncomputable def PhiS (c : Dev nD) (n : ℕ) (hn : n ≤ cfg0.N) : sProp 𝕄 :=
  iprop(iprop(iprop(∃ s, ⌜∀ h : n ≠ 0, s = accAt V c (n - 1) (by omega)⌝ ∗ owns (c : Thread nD τ) scM fullShare s) ∗ restBut (F := F) c) ∗ (∃ r, prngReg c r))

/-- The region's proof data over any entry contents `V`. -/
noncomputable def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem dat_A (c : Dev nD) (w : Fin cfg0.W) : (dat V c).A w = V c (Pipeline.arrRef spec0 w) := rfl
theorem dat_share (c : Dev nD) : ∀ w, (dat V c).share w = fullShare := (dat V c).share_full fun _ => rfl
theorem dat_owed (c : Dev nD) (t) : (dat V c).owed t = 0 := rfl
theorem dat_after_in0 (c : Dev nD) (t : Fin cfg0.N) : (dat V c).after 0 t = iblk V c 0 t := rfl
theorem dat_after_in1 (c : Dev nD) (t : Fin cfg0.N) : (dat V c).after 1 t = iblk V c 1 t := rfl
theorem dat_after_in2 (c : Dev nD) (t : Fin cfg0.N) : (dat V c).after 2 t = iblk V c 2 t := rfl
theorem dat_after_out (c : Dev nD) (t : Fin cfg0.N) : (dat V c).after 3 t = outAt V c t.val t.isLt := rfl

/-- Every point is live for an input window, and what the body leaves there is the window's block. -/
theorem before0 (c : Dev nD) (t : Fin cfg0.N) (d) : (dat V c).before 0 t d = iblk V c 0 t :=
  (dat V c).before_in_eq_fetched 0 rfl (fun _ => rfl) (fun _ _ _ => rfl) (fun _ => rfl) t d
theorem before1 (c : Dev nD) (t : Fin cfg0.N) (d) : (dat V c).before 1 t d = iblk V c 1 t :=
  (dat V c).before_in_eq_fetched 1 rfl (fun _ => rfl) (fun _ _ _ => rfl) (fun _ => rfl) t d
theorem before2 (c : Dev nD) (t : Fin cfg0.N) (d) : (dat V c).before 2 t d = iblk V c 2 t :=
  (dat V c).before_in_eq_fetched 2 rfl (fun _ => rfl) (fun _ _ _ => rfl) (fun _ => rfl) t d

/-- The two shapes of the output window's post, by whether the reduction ends at the point. -/
theorem leaves_out (c : Dev nD) (t : Fin cfg0.N) (d) :
    owns (c : Thread nD τ) (ms3 t) fullShare (if condOut (grid0.coords t) then accAt V c t.val t.isLt else (dat V c).before 3 t d)
      ⊢ (dat V c).leavesExact 3 t := by
  by_cases h : condOut (grid0.coords t)
  · rw [if_pos h]; unfold Dat.leavesExact; rw [out_live _ h]; exact .rfl
  · rw [if_neg h, Dat.leavesExact_idle _ 3 t (out_idle _ h) (out_noFlush t h)]
    iintro H; iexists d; iexact H

/-- One use of `run`: the invariant lends the accumulator, and `accAt_step` names what comes back. -/
theorem sound_body (c : Dev nD) (t : Fin cfg0.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt (F := F) t) (fun _ =>
        iprop(PhiS V c (t.val + 1) t.isLt ∗ (dat V c).owesAt () t.castSucc
          ∗ owns (c : Thread nD τ) (ms0 t) fullShare (iblk V c 0 t) ∗ owns (c : Thread nD τ) (ms1 t) fullShare (iblk V c 1 t)
          ∗ owns (c : Thread nD τ) (ms2 t) fullShare (iblk V c 2 t) ∗ (dat V c).leavesExact 3 t)) := by
  unfold PhiS bodyAt
  simp only [before0, before1, before2]
  iintro ⟨⟨⟨⟨%s, %hs, HS⟩, HR⟩, Hg⟩, Ho, ⟨%d0, H0⟩, ⟨%d1, H1⟩, ⟨%d2, H2⟩, ⟨%d3, H3⟩⟩
  iapply (run c (grid0.coords t) (hs0 t) (hs1 t) (hs2 t) (hs3 t) scM_whole (iblk V c 0 t) (iblk V c 1 t) (iblk V c 2 t) _ s Set.univ _)
  iframe H0 H1 H2 H3 HS
  iintro ⟨H0, H1, H2, H3, HS⟩
  rw [accAt_step V c t s hs]
  iframe H0 H1 H2 Ho HR Hg
  isplitl [HS]
  · iexists _; iframe HS; ipureintro; exact fun _ => rfl
  iapply (leaves_out V c t d3); iexact H3

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [PhiA_eq]; show _ ⊢ PhiS V c 0 (Nat.zero_le _); unfold PhiS
  iintro ⟨⟨⟨%s, HS⟩, HR⟩, Hg⟩
  iframe HR Hg; iexists s; iframe HS; ipureintro; exact fun h => absurd rfl h

theorem hout (c : Dev nD) : (dat V c).Φ (Fin.last cfg0.N) ⊢ Pipeline.ΦA spec0 c := by
  rw [PhiA_eq]; show PhiS V c cfg0.N (Nat.le_refl _) ⊢ _; unfold PhiS
  iintro ⟨⟨⟨%s, -, HS⟩, HR⟩, Hg⟩
  iframe HR Hg; iexists s; iexact HS

end Cert.KernelIdeal.G0

end
-- ==== Proof.KI.S1Base.lean ====
import proofs.«421167_j1614907703321_1_alg».proof.Proof.Gen.KernelIdeal.Launch
import proofs.«421167_j1614907703321_1_alg».proof.Proof.Gen.KernelIdeal.Skeleton
import proofs.«421167_j1614907703321_1_alg».proof.Proof.ViewLib
import Idealize.ShloMosaic.Lib.Pipeline.FrameBody
import Idealize.ShloMosaic.Lib.Ring
import Idealize.ShloMosaic.Lib.Tactic

noncomputable section

namespace Cert.KernelIdeal.S1

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal.Gen Gcn.ViewLib

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

abbrev cond1_1 (i : grid1.Coords) : Prop := k1_cond2 i = 1#1

theorem idleAt1_5 (i : grid1.Coords) (h : ¬cond1_1 i) : cfg1.idle 5 i = true := by
  show (!(k1_cond2 i == 1#1)) = true
  rw [beq_eq_false_iff_ne.mpr h]; rfl

theorem liveAt1_5 (i : grid1.Coords) (h : cond1_1 i) : cfg1.idle 5 i = false := by
  show (!(k1_cond2 i == 1#1)) = false
  rw [show k1_cond2 i = 1#1 from h]; rfl

structure Args where
  (m0 : Memref sig .tc .vmem S2048 .i32) (h0 : m0.IsWhole)
  (m1 : Memref sig .tc .vmem S2048x128 .f32) (h1 : m1.IsWhole)
  (m2 : Memref sig .tc .vmem S512 .f32) (h2 : m2.IsWhole)
  (m3 : Memref sig .tc .vmem S128x128 .f32) (h3 : m3.IsWhole)
  (m4 : Memref sig .tc .vmem S128 .f32) (h4 : m4.IsWhole)
  (m5 : Memref sig .tc .vmem S512x128 .f32) (h5 : m5.IsWhole)
  (ms : Memref sig .tc .vmem S512x128 .f32) (hs : ms.IsWhole)

abbrev scM1 : Memref sig .tc .vmem S512x128 .f32 := Memref.whole cc1_scratch0

abbrev argsAt (t : Fin cfg1.N) : Args where
  m0 := win1_0.stage (cfg1.slots t 0)
  h0 := hstage1_0 ((cfg1.slots t 0).cast nbuf1_0)
  m1 := win1_1.stage (cfg1.slots t 1)
  h1 := hstage1_1 ((cfg1.slots t 1).cast nbuf1_1)
  m2 := win1_2.stage (cfg1.slots t 2)
  h2 := hstage1_2 ((cfg1.slots t 2).cast nbuf1_2)
  m3 := win1_3.stage (cfg1.slots t 3)
  h3 := hstage1_3 ((cfg1.slots t 3).cast nbuf1_3)
  m4 := win1_4.stage (cfg1.slots t 4)
  h4 := hstage1_4 ((cfg1.slots t 4).cast nbuf1_4)
  m5 := win1_5.stage (cfg1.slots t 5)
  h5 := hstage1_5 ((cfg1.slots t 5).cast nbuf1_5)
  ms := scM1
  hs := Memref.isWhole_whole _

/-- The five inputs owned at their contents, beside `Q`. -/
def Args.ins (a : Args) (c : Dev nD) (x0 : Vec F S2048 .i32) (x1 : Vec F S2048x128 .f32) (x2 : Vec F S512 .f32) (x3 : Vec F S128x128 .f32) (x4 : Vec F S128 .f32) (Q : sProp 𝕄) : sProp 𝕄 :=
  iprop(owns (c : Thread nD τ) a.m0 fullShare x0 ∗ owns (c : Thread nD τ) a.m1 fullShare x1 ∗ owns (c : Thread nD τ) a.m2 fullShare x2 ∗ owns (c : Thread nD τ) a.m3 fullShare x3 ∗ owns (c : Thread nD τ) a.m4 fullShare x4 ∗ Q)

abbrev Args.body (a : Args) (i : grid1.Coords) : Prog (TpuEff nD τ sig (Elt F) Λ₀ .tc) PUnit :=
  cc1__scatter_kernel i a.m0 a.h0 a.m1 a.h1 a.m2 a.h2 a.m3 a.h3 a.m4 a.h4 a.m5 a.h5 a.ms a.hs

/-- The body at coordinates `i` on the memrefs `a` runs from `P` to `Q`. -/
def Runs (c : Dev nD) (i : grid1.Coords) (a : Args) (P Q : sProp 𝕄) : Prop :=
  ∀ (E : Set ℕ) (K : PUnit → sProp 𝕄), iprop(P ∗ (Q -∗ K ⟨⟩)) ⊢ wp frame (wpE (defs₀ (F := F)) Variants.none c none) E (a.body i) K

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1 fullShare d)) ∗ restBut1 (F := F) c) ∗ (∃ r, prngReg c r)) := by
  unfold Pipeline.ΦA; rw [scopedRest1_split]; simp only [scM1, owns_whole]; try rfl

/-- What the accumulator holds after the body: the point's contribution added to the zero block where the reduction coordinate is 0, else to `xs`. -/
def accNext (i : grid1.Coords) (x0 : Vec F S2048 .i32) (x1 : Vec F S2048x128 .f32) (xs : Vec F S512x128 .f32) : Vec F S512x128 .f32 :=
  k1_pay2 i x0 x1 (if cond1_0 i then k1_pay1 (F := F) else xs)

end Cert.KernelIdeal.S1

end
-- ==== Proof.KI.S1RunA.lean ====
import proofs.«421167_j1614907703321_1_alg».proof.Proof.KI.S1Base

noncomputable section

namespace Cert.KernelIdeal.S1

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal.Gen Gcn.ViewLib

variable {F : FTy → Type} [FloatOps F]

local notation "𝕄" => MT nD τ sig Unit (Elt F) ℕ (UR sig nD τ) ℕ

set_option maxHeartbeats 1000000 in
/-- The body leaves the accumulator at `accNext`, and writes the output block from it where the reduction coordinate is the last. -/
theorem run1 (c : Dev nD) (i : grid1.Coords) (a : Args)
    (x0 : Vec F S2048 .i32) (x1 : Vec F S2048x128 .f32) (x2 : Vec F S512 .f32) (x3 : Vec F S128x128 .f32) (x4 : Vec F S128 .f32) (xs x5 : Vec F S512x128 .f32) :
    Runs c i a (a.ins c x0 x1 x2 x3 x4 iprop(owns (c : Thread nD τ) a.m5 fullShare x5 ∗ owns (c : Thread nD τ) a.ms fullShare xs))
      (a.ins c x0 x1 x2 x3 x4 iprop(owns (c : Thread nD τ) a.m5 fullShare (if cond1_1 i then k1_pay3 x2 (accNext i x0 x1 xs) x3 x4 else x5)
        ∗ owns (c : Thread nD τ) a.ms fullShare (accNext i x0 x1 xs))) := by
  obtain ⟨m0, h0, m1, h1, m2, h2, m3, h3, m4, h4, m5, h5, ms, hs⟩ := a
  unfold Runs Args.ins Args.body accNext
  intro E K
  simp only [owns_unread c h0, owns_unread c h1, owns_unread c h2, owns_unread c h3, owns_unread c h4, cc1__scatter_kernel_eq_skeleton]
  unfold cc1__scatter_kernel_skel owns
  iintro ⟨⟨H0, H1, H2, H3, H4, ⟨%f5, %hf5, H5⟩, ⟨%fs, %hfs, HS⟩⟩, Hk⟩
  obtain rfl := h5.eq_unread hf5
  obtain rfl := hs.eq_unread hfs
  by_cases hc0 : cond1_0 i <;> by_cases hc1 : cond1_1 i <;>
    (first | rw [if_pos hc0] | rw [if_neg hc0]) <;> (first | rw [if_pos hc1] | rw [if_neg hc1])
  all_goals
    sl_exec (disch := first | exact hc0 | exact hc1)
    sl_step
    iapply Hk
    iframe H0 H1 H2 H3 H4
    isplitl [H5]
    · iexists _; isplitr; swap; · iexact H5
      ipureintro
      first
        | exact h5.read_unread _
        | (sl_unfold_words; rw [read_writes_unit_zero m5.view _ hzMat]; simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat])
    iexists _; isplitr; swap; · iexact HS
    ipureintro
    sl_unfold_words
    rw [read_writes_unit_zero ms.view _ hzMat]
    simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat]

end Cert.KernelIdeal.S1

end
-- ==== Proof.KI.S1Frame.lean ====
import proofs.«421167_j1614907703321_1_alg».proof.Proof.KI.S1RunA
import proofs.«421167_j1614907703321_1_alg».proof.Proof.KI.Sched
import Idealize.ShloMosaic.Lib.Pipeline.Value

noncomputable section

namespace Cert.KernelIdeal.S1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable def accAt (c : Dev nD) : (n : ℕ) → n < cfg1.N → Vec F S512x128 .f32
  | 0, hn => k1_pay2 (grid1.coords ⟨0, hn⟩) (iblk V c 0 ⟨0, hn⟩) (iblk V c 1 ⟨0, hn⟩) (k1_pay1 (F := F))
  | n + 1, hn =>
    if (n + 1) % 293 = 0 then
      k1_pay2 (grid1.coords ⟨n + 1, hn⟩) (iblk V c 0 ⟨n + 1, hn⟩) (iblk V c 1 ⟨n + 1, hn⟩) (k1_pay1 (F := F))
    else
      k1_pay2 (grid1.coords ⟨n + 1, hn⟩) (iblk V c 0 ⟨n + 1, hn⟩) (iblk V c 1 ⟨n + 1, hn⟩) (accAt c n (Nat.lt_of_succ_lt hn))

noncomputable def outAt (c : Dev nD) : (n : ℕ) → n < cfg1.N → Vec F S512x128 .f32 :=
  fun n hn => k1_pay3 (iblk V c 2 ⟨n, hn⟩) (accAt V c n hn) (iblk V c 3 ⟨n, hn⟩) (iblk V c 4 ⟨n, hn⟩)

theorem accAt_first (c : Dev nD) (t : Fin cfg1.N) (h : t.val % 293 = 0) :
    accAt V c t.val t.isLt = k1_pay2 (grid1.coords t) (iblk V c 0 t) (iblk V c 1 t) (k1_pay1 (F := F)) := by
  obtain ⟨n, hn⟩ := t
  cases n with
  | zero => rfl
  | succ n => exact (if_pos h).trans rfl

theorem accAt_next (c : Dev nD) (t : Fin cfg1.N) (h : ¬ t.val % 293 = 0) :
    accAt V c t.val t.isLt = k1_pay2 (grid1.coords t) (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

theorem outAt_last (c : Dev nD) (t : Fin cfg1.N) (h : t.val % 293 = 292) :
    outAt V c t.val t.isLt = k1_pay3 (iblk V c 2 t) (accAt V c t.val t.isLt) (iblk V c 3 t) (iblk V c 4 t) := rfl

/-- The invariant before position `n`: the accumulator at what position `n - 1` left (at anything before position 0). -/
noncomputable def PhiS (c : Dev nD) : (n : ℕ) → n ≤ cfg1.N → sProp 𝕄
  | 0, _ => Pipeline.ΦA spec1 c
  | n + 1, hn => iprop(iprop(owns (c : Thread nD τ) scM1 fullShare (accAt V c n hn) ∗ restBut1 (F := F) c) ∗ (∃ r, prngReg c r))

theorem PhiS_pos (c : Dev nD) (n : ℕ) (h : n ≤ cfg1.N) (hz : n ≠ 0) :
    PhiS V c n h = iprop(iprop(owns (c : Thread nD τ) scM1 fullShare (accAt V c (n - 1) (by omega)) ∗ restBut1 (F := F) c) ∗ (∃ r, prngReg c r)) := by
  cases n with
  | zero => exact absurd rfl hz
  | succ n => rfl

/-- At every position the invariant gives back what the call was handed: the accumulator's contents are forgotten. -/
theorem PhiS_out (c : Dev nD) (n : ℕ) (h : n ≤ cfg1.N) : PhiS V c n h ⊢ Pipeline.ΦA spec1 c := by
  cases n with
  | zero => exact Idealize.SL.BI.Entails.refl _
  | succ n =>
    rw [PhiS, PhiA1_eq]
    iintro ⟨⟨HS, Hr⟩, Hg⟩
    iframe Hr Hg
    iexists _; iexact HS

noncomputable def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t.val t.isLt
  Φ t := PhiS V c t.val (Nat.le_of_lt_succ t.isLt)
  q _ := fullShare
  owed _ := 0

theorem dat_A (c : Dev nD) (w : Fin cfg1.W) : (dat V c).A w = V c (Pipeline.arrRef spec1 w) := by
  dsimp only [dat]
theorem dat_share (c : Dev nD) : ∀ w, (dat V c).share w = fullShare := (dat V c).share_full fun _ => rfl
theorem dat_owed (c : Dev nD) (t) : (dat V c).owed t = 0 := rfl

theorem dat_after_in0 (c : Dev nD) (t : Fin cfg1.N) : (dat V c).after 0 t = iblk V c 0 t := by dsimp only [dat]
theorem dat_after_in1 (c : Dev nD) (t : Fin cfg1.N) : (dat V c).after 1 t = iblk V c 1 t := by dsimp only [dat]
theorem dat_after_in2 (c : Dev nD) (t : Fin cfg1.N) : (dat V c).after 2 t = iblk V c 2 t := by dsimp only [dat]
theorem dat_after_in3 (c : Dev nD) (t : Fin cfg1.N) : (dat V c).after 3 t = iblk V c 3 t := by dsimp only [dat]
theorem dat_after_in4 (c : Dev nD) (t : Fin cfg1.N) : (dat V c).after 4 t = iblk V c 4 t := by dsimp only [dat]
theorem dat_after_out (c : Dev nD) (t : Fin cfg1.N) : (dat V c).after 5 t = outAt V c t.val t.isLt := by dsimp only [dat]

/-- Before the body at any point each input holds its block there. -/
theorem before1_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg1.N) (d) : (dat V c).before 4 t d = iblk V c 4 t :=
  ((dat V c).before_in_eq_fetched 4 rfl (fun _ => rfl) (fun _ _ _ => rfl) (fun _ => rfl) t d).trans rfl

theorem leaves1_5 (c : Dev nD) (t : Fin cfg1.N) (h1 : cond1_1 (grid1.coords t)) :
    (dat V c).leavesExact 5 t = owns (c : Thread nD τ) (argsAt t).m5 fullShare (outAt V c t.val t.isLt) := by
  rw [← dat_after_out V c t]; unfold Dat.leavesExact; rw [liveAt1_5 (grid1.coords t) h1]

/-- The body at any point: the point's position on the reduction axis picks the run, and the invariant carries the accumulator from point to point. -/
theorem sound_body (c : Dev nD) (t : Fin cfg1.N) :
    iprop(PhiS V c t.val (Nat.le_of_lt t.isLt) ∗ (dat V c).owesAt () t.castSucc
      ∗ (∃ d, owns (c : Thread nD τ) (argsAt t).m0 fullShare ((dat V c).before 0 t d))
      ∗ (∃ d, owns (c : Thread nD τ) (argsAt t).m1 fullShare ((dat V c).before 1 t d))
      ∗ (∃ d, owns (c : Thread nD τ) (argsAt t).m2 fullShare ((dat V c).before 2 t d))
      ∗ (∃ d, owns (c : Thread nD τ) (argsAt t).m3 fullShare ((dat V c).before 3 t d))
      ∗ (∃ d, owns (c : Thread nD τ) (argsAt t).m4 fullShare ((dat V c).before 4 t d))
      ∗ (∃ d, owns (c : Thread nD τ) (argsAt t).m5 fullShare ((dat V c).before 5 t d)))
    ⊢ wp frame (wpE (defs₀ (F := F)) Variants.none c none) Set.univ ((argsAt t).body (grid1.coords t)) fun _ =>
      iprop(PhiS V c (t.val + 1) t.isLt ∗ (dat V c).owesAt () t.castSucc
        ∗ (argsAt t).ins c (iblk V c 0 t) (iblk V c 1 t) (iblk V c 2 t) (iblk V c 3 t) (iblk V c 4 t) ((dat V c).leavesExact 5 t)) := by
  simp only [before1_0, before1_1, before1_2, before1_3, before1_4]
  rw [PhiS]
  unfold Args.ins
  have hr := Sched.reset1_iff t
  have hl := Sched.last1_iff t
  by_cases h0 : t.val % 293 = 0
  case' pos =>
    have hc1 : ¬cond1_1 (grid1.coords t) := fun h => by have := hl.mp h; omega
    rw [accAt_first V c t h0, Dat.leavesExact_idle (dat V c) 5 t (idleAt1_5 _ hc1) (Bool.eq_false_iff.mpr fun hf => hc1 (hl.mpr ((Sched.flush1_out t).mp hf)))]
    refine (sep_mono_left (PhiS_out V c _ _)).trans ?_
    rw [PhiA1_eq]
    iintro ⟨⟨⟨⟨%xs, HS⟩, Hr⟩, Hg⟩, Ho, ⟨%d0, H0⟩, ⟨%d1, H1⟩, ⟨%d2, H2⟩, ⟨%d3, H3⟩, ⟨%d4, H4⟩, ⟨%d5, H5⟩⟩
    have R := run1 c (grid1.coords t) (argsAt t) (iblk V c 0 t) (iblk V c 1 t) (iblk V c 2 t) (iblk V c 3 t) (iblk V c 4 t) xs ((dat V c).before 5 t d5)
    unfold Runs Args.ins accNext at R
    rw [if_pos (hr.mpr h0), if_neg hc1] at R
  case' neg =>
    have hc0 : ¬cond1_0 (grid1.coords t) := fun h => h0 (hr.mp h)
    rw [accAt_next V c t h0, PhiS_pos V c _ _ (fun e => h0 (by rw [e]))]
    by_cases h1 : t.val % 293 = 292
    case' pos => rw [leaves1_5 V c t (hl.mpr h1), outAt_last V c t h1, accAt_next V c t h0]
    case' neg => rw [Dat.leavesExact_idle (dat V c) 5 t (idleAt1_5 _ fun h => h1 (hl.mp h)) (Bool.eq_false_iff.mpr fun hf => h1 ((Sched.flush1_out t).mp hf))]
    all_goals
      iintro ⟨⟨⟨HS, Hr⟩, Hg⟩, Ho, ⟨%d0, H0⟩, ⟨%d1, H1⟩, ⟨%d2, H2⟩, ⟨%d3, H3⟩, ⟨%d4, H4⟩, ⟨%d5, H5⟩⟩
      have R := run1 c (grid1.coords t) (argsAt t) (iblk V c 0 t) (iblk V c 1 t) (iblk V c 2 t) (iblk V c 3 t) (iblk V c 4 t) (accAt V c (t.val - 1) (Nat.lt_of_le_of_lt (Nat.sub_le _ _) t.isLt)) ((dat V c).before 5 t d5)
      unfold Runs Args.ins accNext at R
      first
        | rw [if_neg hc0, if_pos (hl.mpr h1)] at R
        | rw [if_neg hc0, if_neg fun h => h1 (hl.mp h)] at R
  all_goals
    iapply R Set.univ _
    iframe H0 H1 H2 H3 H4 H5 HS
    iintro ⟨H0, H1, H2, H3, H4, H5, HS⟩
    iframe HS Hr Hg Ho H0 H1 H2 H3 H4
    first | iexact H5 | (iexists _; iexact H5)

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := Idealize.SL.BI.Entails.refl _

theorem hout (c : Dev nD) : (dat V c).Φ (Fin.last cfg1.N) ⊢ Pipeline.ΦA spec1 c :=
  PhiS_out V c _ (Nat.le_of_lt_succ (Fin.last cfg1.N).isLt)

end Cert.KernelIdeal.S1

end
-- ==== Proof.KI.Sched2.lean ====
import proofs.«421167_j1614907703321_1_alg».proof.Proof.Gen.KernelIdeal.Launch
import proofs.«421167_j1614907703321_1_alg».proof.Proof.Sched

namespace Cert.KernelIdeal.Sched

open Cert.KernelIdeal Cert.KernelIdeal.Gen Idealize.ShloMosaic Gcn.Sched

theorem lt2 (t : Fin cfg2.N) : t.val < 28714 := lt_of_lt_of_eq t.isLt (show cfg2.N = 28714 from N_2)
theorem col2 (t : Fin cfg2.N) : (grid2.coords t 1).val = t.val % 98 := col (A := 293) (B := 98) t
theorem row2 (t : Fin cfg2.N) : (grid2.coords t 0).val = t.val / 98 := row (A := 293) (B := 98) t
theorem reset2_iff (t : Fin cfg2.N) :
    (Scalar.cmpi .ne (Scalar.extui (Scalar.cmpi .eq (BitVec.ofNat 32 (grid2.coords t 1).val) 0#32)) 0#32) = 1#1 ↔ t.val % 98 = 0 :=
  col_word_iff (A := 293) (B := 98) t 0 (by decide) (by decide)
theorem last2_iff (t : Fin cfg2.N) : k2_cond2 (grid2.coords t) = 1#1 ↔ t.val % 98 = 97 :=
  col_word_iff (A := 293) (B := 98) t 97 (by decide) (by decide)
theorem idx2_3 (t : Fin cfg2.N) : win2_3.index t = ![t.val / 98, 0] := by
  show cc2_transform_3 (grid2.coords t) = _
  unfold cc2_transform_3; dsimp only
  rw [toNat_row (A := 293) (B := 98) t (by decide)]; rfl
theorem flush2_out (t : Fin cfg2.N) : (cfg2.win 3).flush t = true ↔ t.val % 98 = 97 :=
  flush_iff (A := 293) (B := 98) win2_3 (by decide) rfl
    (fun t t' => by rw [idx2_3, idx2_3]; exact ⟨fun h => congrFun h 0, fun h => by rw [h]⟩) t

theorem lt3 (t : Fin cfg3.N) : t.val < 28714 := lt_of_lt_of_eq t.isLt (show cfg3.N = 28714 from N_3)
theorem col3 (t : Fin cfg3.N) : (grid3.coords t 1).val = t.val % 293 := col (A := 98) (B := 293) t
theorem row3 (t : Fin cfg3.N) : (grid3.coords t 0).val = t.val / 293 := row (A := 98) (B := 293) t
theorem reset3_iff (t : Fin cfg3.N) :
    (Scalar.cmpi .ne (Scalar.extui (Scalar.cmpi .eq (BitVec.ofNat 32 (grid3.coords t 1).val) 0#32)) 0#32) = 1#1 ↔ t.val % 293 = 0 :=
  col_word_iff (A := 98) (B := 293) t 0 (by decide) (by decide)
theorem last3_iff (t : Fin cfg3.N) : k3_cond2 (grid3.coords t) = 1#1 ↔ t.val % 293 = 292 :=
  col_word_iff (A := 98) (B := 293) t 292 (by decide) (by decide)
theorem idx3_5 (t : Fin cfg3.N) : win3_5.index t = ![t.val / 293, 0] := by
  show cc3_transform_5 (grid3.coords t) = _
  unfold cc3_transform_5; dsimp only
  rw [toNat_row (A := 98) (B := 293) t (by decide)]; rfl
theorem flush3_out (t : Fin cfg3.N) : (cfg3.win 5).flush t = true ↔ t.val % 293 = 292 :=
  flush_iff (A := 98) (B := 293) win3_5 (by decide) rfl
    (fun t t' => by rw [idx3_5, idx3_5]; exact ⟨fun h => congrFun h 0, fun h => by rw [h]⟩) t

end Cert.KernelIdeal.Sched
-- ==== Proof.KI.G2Base.lean ====
import proofs.«421167_j1614907703321_1_alg».proof.Proof.Gen.KernelIdeal.Launch
import proofs.«421167_j1614907703321_1_alg».proof.Proof.Gen.KernelIdeal.Skeleton
import proofs.«421167_j1614907703321_1_alg».proof.Proof.KI.Sched2
import proofs.«421167_j1614907703321_1_alg».proof.Proof.ViewLib
import Idealize.ShloMosaic.Lib.Tactic

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, read at the contents `V` the region starts from. -/
noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The reduction coordinate is at its first value. -/
abbrev condReset (i : grid2.Coords) : Prop := (Scalar.cmpi .ne (Scalar.extui (Scalar.cmpi .eq (BitVec.ofNat 32 (i 1).val) 0#32)) 0#32) = 1#1

/-- The reduction coordinate is at its last value. -/
abbrev condOut (i : grid2.Coords) : Prop := k2_cond2 i = 1#1

theorem lt_N (t : Fin cfg2.N) : t.val < 28714 := Sched.lt2 t

/-- The output window is written exactly where the reduction ends. -/
theorem out_idle (i : grid2.Coords) (h : ¬condOut i) : cfg2.idle 3 i = true := congrArg not (beq_false_of_ne h)
theorem out_live (i : grid2.Coords) (h : condOut i) : cfg2.idle 3 i = false := congrArg not (beq_iff_eq.mpr h)
theorem out_noFlush (t : Fin cfg2.N) (h : ¬condOut (grid2.coords t)) : (cfg2.win 3).flush t = false :=
  Bool.eq_false_iff.mpr fun hf => h ((Sched.last2_iff t).mpr ((Sched.flush2_out t).mp hf))

/-- Each window's current buffer at point `t`, whole. -/
abbrev ms0 (t : Fin cfg2.N) : Memref sig .tc .vmem S2048 .i32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S512 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S2048x128 .f32 := win2_3.stage (cfg2.slots t 3)
abbrev hs3 (t : Fin cfg2.N) : (ms3 t).IsWhole := hstage2_3 ((cfg2.slots t 3).cast nbuf2_3)

/-- The accumulator. -/
abbrev scM : Memref sig .tc .vmem S2048x128 .f32 := Memref.whole cc2_scratch0
theorem scM_whole : (scM).IsWhole := Memref.isWhole_whole _

/-- The body at point `t`, on the windows' current buffers and the accumulator. -/
abbrev bodyAt (t : Fin cfg2.N) : Prog (TpuEff nD τ sig (Elt F) Λ₀ .tc) PUnit :=
  cc2__gather_kernel (grid2.coords t) (ms0 t) (hs0 t) (ms1 t) (hs1 t) (ms2 t) (hs2 t) (ms3 t) (hs3 t) scM scM_whole

abbrev restBut (c : Dev nD) : sProp 𝕄 :=
  Pipeline.scopedRestBut (Ix := Unit) (Name := ℕ) (U := UR sig nD τ) (Lvl := ℕ) (Val := Elt F) spec2 c [cc2_scratch0]

/-- The region invariant is the accumulator at some contents beside what the region leaves unopened. -/
theorem PhiA_eq (c : Dev nD) :
    (Pipeline.ΦA spec2 c : sProp 𝕄)
      = iprop(iprop(iprop((∃ d, owns (c : Thread nD τ) scM fullShare d)) ∗ restBut (F := F) c) ∗ (∃ r, prngReg c r)) := by
  unfold Pipeline.ΦA; rw [scopedRest2_split]; simp only [scM, owns_whole]; try rfl

end Cert.KernelIdeal.G2

end
-- ==== Proof.KI.G2RunA.lean ====
import proofs.«421167_j1614907703321_1_alg».proof.Proof.KI.G2Base

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Gcn.ViewLib

variable {F : FTy → Type} [FloatOps F]

local notation "𝕄" => MT nD τ sig Unit (Elt F) ℕ (UR sig nD τ) ℕ

section Run

variable (c : Dev nD) (i : grid2.Coords)
    {arg2 : Memref sig .tc .vmem S2048 .i32} (harg2 : arg2.IsWhole)
    {arg3 : Memref sig .tc .vmem S512x128 .f32} (harg3 : arg3.IsWhole)
    {arg4 : Memref sig .tc .vmem S512 .f32} (harg4 : arg4.IsWhole)
    {arg5 : Memref sig .tc .vmem S2048x128 .f32} (harg5 : arg5.IsWhole)
    {arg6 : Memref sig .tc .vmem S2048x128 .f32} (harg6 : arg6.IsWhole)
    (x0 : Vec F S2048 .i32) (x1 : Vec F S512x128 .f32) (x2 : Vec F S512 .f32) (y s : Vec F S2048x128 .f32)

/-- The accumulator's update by the three input blocks: of the zero block where the reduction starts, else of what it held. -/
noncomputable def accNext : Vec F S2048x128 .f32 := k2_pay2 i x0 x2 x1 (if condReset i then k2_pay1 else s)

set_option maxHeartbeats 1000000 in
/-- In each of the four cases the loads and stores run in order; every store is through the whole rectangle, so the last one decides what is read back. -/
theorem run (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare y ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (if condOut i then accNext i x0 x1 x2 s else y)
            ∗ owns (c : Thread nD τ) arg6 fullShare (accNext i x0 x1 x2 s)) -∗ K ⟨⟩))
      ⊢ wp frame (wpE (defs₀ (F := F)) Variants.none c none) E (cc2__gather_kernel i arg2 harg2 arg3 harg3 arg4 harg4 arg5 harg5 arg6 harg6) K := by
  unfold accNext
  by_cases hc0 : condReset i <;> by_cases hc2 : condOut i <;>
    (first | rw [if_pos hc0] | rw [if_neg hc0]) <;> (first | rw [if_pos hc2] | rw [if_neg hc2]) <;>
    (simp only [cc2__gather_kernel_eq_skeleton]; unfold cc2__gather_kernel_skel owns
     iintro ⟨⟨%f0, %hf0, H0⟩, ⟨%f1, %hf1, H1⟩, ⟨%f2, %hf2, H2⟩, ⟨%f3, %hf3, H3⟩, ⟨%fs, %hfs, HS⟩, Hk⟩
     obtain rfl := harg2.eq_unread hf0; obtain rfl := harg3.eq_unread hf1; obtain rfl := harg4.eq_unread hf2
     obtain rfl := harg5.eq_unread hf3; obtain rfl := harg6.eq_unread hfs
     sl_exec (disch := first | exact hc0 | exact hc2)
     sl_step
     iapply Hk
     isplitl [H0]; · iexists _; iframe H0; ipureintro; exact hf0
     isplitl [H1]; · iexists _; iframe H1; ipureintro; exact hf1
     isplitl [H2]; · iexists _; iframe H2; ipureintro; exact hf2
     isplitl [H3] <;> iexists _ <;> iframe <;> ipureintro <;> sl_unfold_words <;>
       simp only [View.readAt_eq_ld, Memref.IsWhole.read_unread, View.ld_unit_zero (S := S2048) hzVec, View.ld_unit_zero (S := S512) hzVec,
         View.ld_unit_zero (S := S512x128) hzMat, View.ld_unit_zero (S := S2048x128) hzMat, readCov_cons_unit_zero (sh := S2048x128) _ hzMat, read_writes_unit_zero (sh := S2048x128) _ _ hzMat])

end Run

end Cert.KernelIdeal.G2

end
-- ==== Proof.KI.G2Frame.lean ====
import proofs.«421167_j1614907703321_1_alg».proof.Proof.KI.G2RunA

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`: the updates along its row of the grid so far, from the zero block. -/
noncomputable def accAt (c : Dev nD) : (n : ℕ) → n < cfg2.N → Vec F S2048x128 .f32
  | 0, hn => k2_pay2 (grid2.coords ⟨0, hn⟩) (iblk V c 0 ⟨0, hn⟩) (iblk V c 2 ⟨0, hn⟩) (iblk V c 1 ⟨0, hn⟩) (k2_pay1 (F := F))
  | n + 1, hn =>
    if (n + 1) % 98 = 0 then
      k2_pay2 (grid2.coords ⟨n + 1, hn⟩) (iblk V c 0 ⟨n + 1, hn⟩) (iblk V c 2 ⟨n + 1, hn⟩) (iblk V c 1 ⟨n + 1, hn⟩) (k2_pay1 (F := F))
    else
      k2_pay2 (grid2.coords ⟨n + 1, hn⟩) (iblk V c 0 ⟨n + 1, hn⟩) (iblk V c 2 ⟨n + 1, hn⟩) (iblk V c 1 ⟨n + 1, hn⟩) (accAt c n (Nat.lt_of_succ_lt hn))

/-- Where the body stores the output, it stores the accumulator. -/
noncomputable def outAt (c : Dev nD) : (n : ℕ) → n < cfg2.N → Vec F S2048x128 .f32 :=
  fun n hn => accAt V c n hn

theorem accAt_first (c : Dev nD) (t : Fin cfg2.N) (h : t.val % 98 = 0) :
    accAt V c t.val t.isLt = k2_pay2 (grid2.coords t) (iblk V c 0 t) (iblk V c 2 t) (iblk V c 1 t) (k2_pay1 (F := F)) := by
  obtain ⟨_ | n, hn⟩ := t
  exacts [rfl, if_pos h]

theorem accAt_next (c : Dev nD) (t : Fin cfg2.N) (h : ¬ t.val % 98 = 0) :
    accAt V c t.val t.isLt = k2_pay2 (grid2.coords t) (iblk V c 0 t) (iblk V c 2 t) (iblk V c 1 t) (accAt V c (t.val - 1) (Nat.lt_of_le_of_lt (Nat.sub_le _ _) t.isLt)) := by
  obtain ⟨_ | n, hn⟩ := t
  exacts [absurd (Nat.zero_mod _) h, if_neg h]

theorem outAt_last (c : Dev nD) (t : Fin cfg2.N) (h : t.val % 98 = 97) : outAt V c t.val t.isLt = accAt V c t.val t.isLt := rfl

/-- Both cases of the recursion are one step of `accNext`, which is what the body computes. -/
theorem accAt_step (c : Dev nD) (t : Fin cfg2.N) (s : Vec F S2048x128 .f32)
    (hs : t.val ≠ 0 → s = accAt V c (t.val - 1) (Nat.lt_of_le_of_lt (Nat.sub_le _ _) t.isLt)) :
    accNext (grid2.coords t) (iblk V c 0 t) (iblk V c 1 t) (iblk V c 2 t) s = accAt V c t.val t.isLt := by
  unfold accNext
  by_cases h : t.val % 98 = 0
  · rw [if_pos ((Sched.reset2_iff t).mpr h), accAt_first V c t h]
  · rw [if_neg (mt (Sched.reset2_iff t).mp h), accAt_next V c t h, hs fun e => h (by rw [e])]

/-- The invariant names the accumulator's contents from the first point on; before it they are arbitrary. -/
noncomputable def PhiS (c : Dev nD) (n : ℕ) (hn : n ≤ cfg2.N) : sProp 𝕄 :=
  iprop(iprop(iprop(∃ s, ⌜∀ h : n ≠ 0, s = accAt V c (n - 1) (by omega)⌝ ∗ owns (c : Thread nD τ) scM fullShare s) ∗ restBut (F := F) c) ∗ (∃ r, prngReg c r))

/-- The region's proof data over any entry contents `V`. -/
noncomputable def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outAt V c t.val t.isLt
  Φ t := PhiS V c t.val (Nat.le_of_lt_succ t.isLt)
  q _ := fullShare
  owed _ := 0

theorem dat_A (c : Dev nD) (w : Fin cfg2.W) : (dat V c).A w = V c (Pipeline.arrRef spec2 w) := rfl
theorem dat_share (c : Dev nD) : ∀ w, (dat V c).share w = fullShare := (dat V c).share_full fun _ => rfl
theorem dat_owed (c : Dev nD) (t) : (dat V c).owed t = 0 := rfl
theorem dat_after_in0 (c : Dev nD) (t : Fin cfg2.N) : (dat V c).after 0 t = iblk V c 0 t := rfl
theorem dat_after_in1 (c : Dev nD) (t : Fin cfg2.N) : (dat V c).after 1 t = iblk V c 1 t := rfl
theorem dat_after_in2 (c : Dev nD) (t : Fin cfg2.N) : (dat V c).after 2 t = iblk V c 2 t := rfl
theorem dat_after_out (c : Dev nD) (t : Fin cfg2.N) : (dat V c).after 3 t = outAt V c t.val t.isLt := rfl

/-- Every point is live for an input window, and what the body leaves there is the window's block. -/
theorem before0 (c : Dev nD) (t : Fin cfg2.N) (d) : (dat V c).before 0 t d = iblk V c 0 t :=
  (dat V c).before_in_eq_fetched 0 rfl (fun _ => rfl) (fun _ _ _ => rfl) (fun _ => rfl) t d
theorem before1 (c : Dev nD) (t : Fin cfg2.N) (d) : (dat V c).before 1 t d = iblk V c 1 t :=
  (dat V c).before_in_eq_fetched 1 rfl (fun _ => rfl) (fun _ _ _ => rfl) (fun _ => rfl) t d
theorem before2 (c : Dev nD) (t : Fin cfg2.N) (d) : (dat V c).before 2 t d = iblk V c 2 t :=
  (dat V c).before_in_eq_fetched 2 rfl (fun _ => rfl) (fun _ _ _ => rfl) (fun _ => rfl) t d

/-- The two shapes of the output window's post, by whether the reduction ends at the point. -/
theorem leaves_out (c : Dev nD) (t : Fin cfg2.N) (d) :
    owns (c : Thread nD τ) (ms3 t) fullShare (if condOut (grid2.coords t) then accAt V c t.val t.isLt else (dat V c).before 3 t d)
      ⊢ (dat V c).leavesExact 3 t := by
  by_cases h : condOut (grid2.coords t)
  · rw [if_pos h]; unfold Dat.leavesExact; rw [out_live _ h]; exact .rfl
  · rw [if_neg h, Dat.leavesExact_idle _ 3 t (out_idle _ h) (out_noFlush t h)]
    iintro H; iexists d; iexact H

/-- One use of `run`: the invariant lends the accumulator, and `accAt_step` names what comes back. -/
theorem sound_body (c : Dev nD) (t : Fin cfg2.N) :
    iprop(PhiS V c t.val (Nat.le_of_lt t.isLt) ∗ (dat V c).owesAt () t.castSucc
      ∗ (∃ d, owns (c : Thread nD τ) (ms0 t) fullShare ((dat V c).before 0 t d))
      ∗ (∃ d, owns (c : Thread nD τ) (ms1 t) fullShare ((dat V c).before 1 t d))
      ∗ (∃ d, owns (c : Thread nD τ) (ms2 t) fullShare ((dat V c).before 2 t d))
      ∗ (∃ d, owns (c : Thread nD τ) (ms3 t) fullShare ((dat V c).before 3 t d)))
    ⊢ wp frame (wpE (defs₀ (F := F)) Variants.none c none) Set.univ (bodyAt (F := F) t) (fun _ =>
        iprop(PhiS V c (t.val + 1) t.isLt ∗ (dat V c).owesAt () t.castSucc
          ∗ owns (c : Thread nD τ) (ms0 t) fullShare (iblk V c 0 t) ∗ owns (c : Thread nD τ) (ms1 t) fullShare (iblk V c 1 t)
          ∗ owns (c : Thread nD τ) (ms2 t) fullShare (iblk V c 2 t) ∗ (dat V c).leavesExact 3 t)) := by
  unfold PhiS bodyAt
  simp only [before0, before1, before2]
  iintro ⟨⟨⟨⟨%s, %hs, HS⟩, HR⟩, Hg⟩, Ho, ⟨%d0, H0⟩, ⟨%d1, H1⟩, ⟨%d2, H2⟩, ⟨%d3, H3⟩⟩
  iapply (run c (grid2.coords t) (hs0 t) (hs1 t) (hs2 t) (hs3 t) scM_whole (iblk V c 0 t) (iblk V c 1 t) (iblk V c 2 t) _ s Set.univ _)
  iframe H0 H1 H2 H3 HS
  iintro ⟨H0, H1, H2, H3, HS⟩
  rw [accAt_step V c t s hs]
  iframe H0 H1 H2 Ho HR Hg
  isplitl [HS]
  · iexists _; iframe HS; ipureintro; exact fun _ => rfl
  iapply (leaves_out V c t d3); iexact H3

theorem body_obligation (c : Dev nD) : BodyObligation (dat (F := F) V c) (defs₀ (F := F)) Variants.none () Set.univ := fun t => by
  rw [bigSep_W2, bigSep_W2]
  exact sound_body V c t

theorem hin (c : Dev nD) : Pipeline.ΦA spec2 c ⊢ (dat V c).Φ 0 := by
  rw [PhiA_eq]; show _ ⊢ PhiS V c 0 (Nat.zero_le _); unfold PhiS
  iintro ⟨⟨⟨%s, HS⟩, HR⟩, Hg⟩
  iframe HR Hg; iexists s; iframe HS; ipureintro; exact fun h => absurd rfl h

theorem hout (c : Dev nD) : (dat V c).Φ (Fin.last cfg2.N) ⊢ Pipeline.ΦA spec2 c := by
  rw [PhiA_eq]; show PhiS V c cfg2.N (Nat.le_refl _) ⊢ _; unfold PhiS
  iintro ⟨⟨⟨%s, -, HS⟩, HR⟩, Hg⟩
  iframe HR Hg; iexists s; iexact HS

end Cert.KernelIdeal.G2

end
-- ==== Proof.KI.S3Base.lean ====
import proofs.«421167_j1614907703321_1_alg».proof.Proof.Gen.KernelIdeal.Launch
import proofs.«421167_j1614907703321_1_alg».proof.Proof.Gen.KernelIdeal.Skeleton
import proofs.«421167_j1614907703321_1_alg».proof.Proof.ViewLib
import Idealize.ShloMosaic.Lib.Pipeline.FrameBody
import Idealize.ShloMosaic.Lib.Ring
import Idealize.ShloMosaic.Lib.Tactic

noncomputable section

namespace Cert.KernelIdeal.S3

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal.Gen Gcn.ViewLib

variable {F : FTy → Type} [FloatOps F]

local notation "𝕄" => MT nD τ sig Unit (Elt F) ℕ (UR sig nD τ) ℕ

abbrev cond1_0 (i : grid3.Coords) : Prop :=
  (Scalar.cmpi .ne (Scalar.extui (Scalar.cmpi .eq (BitVec.ofNat 32 (i 1).val) 0#32)) 0#32) = 1#1

abbrev cond1_1 (i : grid3.Coords) : Prop := k3_cond2 i = 1#1

theorem idleAt1_5 (i : grid3.Coords) (h : ¬cond1_1 i) : cfg3.idle 5 i = true := by
  show (!(k3_cond2 i == 1#1)) = true
  rw [beq_eq_false_iff_ne.mpr h]; rfl

theorem liveAt1_5 (i : grid3.Coords) (h : cond1_1 i) : cfg3.idle 5 i = false := by
  show (!(k3_cond2 i == 1#1)) = false
  rw [show k3_cond2 i = 1#1 from h]; rfl

structure Args where
  (m0 : Memref sig .tc .vmem S2048 .i32) (h0 : m0.IsWhole)
  (m1 : Memref sig .tc .vmem S2048x128 .f32) (h1 : m1.IsWhole)
  (m2 : Memref sig .tc .vmem S512 .f32) (h2 : m2.IsWhole)
  (m3 : Memref sig .tc .vmem S128x128 .f32) (h3 : m3.IsWhole)
  (m4 : Memref sig .tc .vmem S128 .f32) (h4 : m4.IsWhole)
  (m5 : Memref sig .tc .vmem S512x128 .f32) (h5 : m5.IsWhole)
  (ms : Memref sig .tc .vmem S512x128 .f32) (hs : ms.IsWhole)

abbrev scM1 : Memref sig .tc .vmem S512x128 .f32 := Memref.whole cc3_scratch0

abbrev argsAt (t : Fin cfg3.N) : Args where
  m0 := win3_0.stage (cfg3.slots t 0)
  h0 := hstage3_0 ((cfg3.slots t 0).cast nbuf3_0)
  m1 := win3_1.stage (cfg3.slots t 1)
  h1 := hstage3_1 ((cfg3.slots t 1).cast nbuf3_1)
  m2 := win3_2.stage (cfg3.slots t 2)
  h2 := hstage3_2 ((cfg3.slots t 2).cast nbuf3_2)
  m3 := win3_3.stage (cfg3.slots t 3)
  h3 := hstage3_3 ((cfg3.slots t 3).cast nbuf3_3)
  m4 := win3_4.stage (cfg3.slots t 4)
  h4 := hstage3_4 ((cfg3.slots t 4).cast nbuf3_4)
  m5 := win3_5.stage (cfg3.slots t 5)
  h5 := hstage3_5 ((cfg3.slots t 5).cast nbuf3_5)
  ms := scM1
  hs := Memref.isWhole_whole _

/-- The five inputs owned at their contents, beside `Q`. -/
def Args.ins (a : Args) (c : Dev nD) (x0 : Vec F S2048 .i32) (x1 : Vec F S2048x128 .f32) (x2 : Vec F S512 .f32) (x3 : Vec F S128x128 .f32) (x4 : Vec F S128 .f32) (Q : sProp 𝕄) : sProp 𝕄 :=
  iprop(owns (c : Thread nD τ) a.m0 fullShare x0 ∗ owns (c : Thread nD τ) a.m1 fullShare x1 ∗ owns (c : Thread nD τ) a.m2 fullShare x2 ∗ owns (c : Thread nD τ) a.m3 fullShare x3 ∗ owns (c : Thread nD τ) a.m4 fullShare x4 ∗ Q)

abbrev Args.body (a : Args) (i : grid3.Coords) : Prog (TpuEff nD τ sig (Elt F) Λ₀ .tc) PUnit :=
  cc3__scatter_kernel i a.m0 a.h0 a.m1 a.h1 a.m2 a.h2 a.m3 a.h3 a.m4 a.h4 a.m5 a.h5 a.ms a.hs

/-- The body at coordinates `i` on the memrefs `a` runs from `P` to `Q`. -/
def Runs (c : Dev nD) (i : grid3.Coords) (a : Args) (P Q : sProp 𝕄) : Prop :=
  ∀ (E : Set ℕ) (K : PUnit → sProp 𝕄), iprop(P ∗ (Q -∗ K ⟨⟩)) ⊢ wp frame (wpE (defs₀ (F := F)) Variants.none c none) E (a.body i) K

abbrev restBut1 (c : Dev nD) : sProp 𝕄 :=
  Pipeline.scopedRestBut (Ix := Unit) (Name := ℕ) (U := UR sig nD τ) (Lvl := ℕ) (Val := Elt F) spec3 c [cc3_scratch0]

theorem PhiA1_eq (c : Dev nD) :
    (Pipeline.ΦA spec3 c : sProp 𝕄)
      = iprop(iprop(iprop((∃ d, owns (c : Thread nD τ) scM1 fullShare d)) ∗ restBut1 (F := F) c) ∗ (∃ r, prngReg c r)) := by
  unfold Pipeline.ΦA; rw [scopedRest3_split]; simp only [scM1, owns_whole]; try rfl

/-- What the accumulator holds after the body: the point's contribution added to the zero block where the reduction coordinate is 0, else to `xs`. -/
def accNext (i : grid3.Coords) (x0 : Vec F S2048 .i32) (x1 : Vec F S2048x128 .f32) (xs : Vec F S512x128 .f32) : Vec F S512x128 .f32 :=
  k3_pay2 i x0 x1 (if cond1_0 i then k3_pay1 (F := F) else xs)

end Cert.KernelIdeal.S3

end
-- ==== Proof.KI.S3RunA.lean ====
import proofs.«421167_j1614907703321_1_alg».proof.Proof.KI.S3Base

noncomputable section

namespace Cert.KernelIdeal.S3

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Cert.KernelIdeal.Gen Gcn.ViewLib

variable {F : FTy → Type} [FloatOps F]

local notation "𝕄" => MT nD τ sig Unit (Elt F) ℕ (UR sig nD τ) ℕ

set_option maxHeartbeats 1000000 in
/-- The body leaves the accumulator at `accNext`, and writes the output block from it where the reduction coordinate is the last. -/
theorem run1 (c : Dev nD) (i : grid3.Coords) (a : Args)
    (x0 : Vec F S2048 .i32) (x1 : Vec F S2048x128 .f32) (x2 : Vec F S512 .f32) (x3 : Vec F S128x128 .f32) (x4 : Vec F S128 .f32) (xs x5 : Vec F S512x128 .f32) :
    Runs c i a (a.ins c x0 x1 x2 x3 x4 iprop(owns (c : Thread nD τ) a.m5 fullShare x5 ∗ owns (c : Thread nD τ) a.ms fullShare xs))
      (a.ins c x0 x1 x2 x3 x4 iprop(owns (c : Thread nD τ) a.m5 fullShare (if cond1_1 i then k3_pay3 x2 (accNext i x0 x1 xs) x3 x4 else x5)
        ∗ owns (c : Thread nD τ) a.ms fullShare (accNext i x0 x1 xs))) := by
  obtain ⟨m0, h0, m1, h1, m2, h2, m3, h3, m4, h4, m5, h5, ms, hs⟩ := a
  unfold Runs Args.ins Args.body accNext
  intro E K
  simp only [owns_unread c h0, owns_unread c h1, owns_unread c h2, owns_unread c h3, owns_unread c h4, cc3__scatter_kernel_eq_skeleton]
  unfold cc3__scatter_kernel_skel owns
  iintro ⟨⟨H0, H1, H2, H3, H4, ⟨%f5, %hf5, H5⟩, ⟨%fs, %hfs, HS⟩⟩, Hk⟩
  obtain rfl := h5.eq_unread hf5
  obtain rfl := hs.eq_unread hfs
  by_cases hc0 : cond1_0 i <;> by_cases hc1 : cond1_1 i <;>
    (first | rw [if_pos hc0] | rw [if_neg hc0]) <;> (first | rw [if_pos hc1] | rw [if_neg hc1])
  all_goals
    sl_exec (disch := first | exact hc0 | exact hc1)
    sl_step
    iapply Hk
    iframe H0 H1 H2 H3 H4
    isplitl [H5]
    · iexists _; isplitr; swap; · iexact H5
      ipureintro
      first
        | exact h5.read_unread _
        | (sl_unfold_words; rw [read_writes_unit_zero m5.view _ hzMat]; simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat])
    iexists _; isplitr; swap; · iexact HS
    ipureintro
    sl_unfold_words
    rw [read_writes_unit_zero ms.view _ hzMat]
    simp only [readAt_unit_zero h0 hzVec, readAt_unit_zero h1 hzMat, readAt_unit_zero h2 hzVec, readAt_unit_zero h3 hzMat, readAt_unit_zero h4 hzVec, readAt_unit_zero hs hzMat, readCov_cons_unit_zero ms.view hzMat]

end Cert.KernelIdeal.S3

end
-- ==== Proof.KI.S3Frame.lean ====
import proofs.«421167_j1614907703321_1_alg».proof.Proof.KI.S3RunA
import proofs.«421167_j1614907703321_1_alg».proof.Proof.KI.Sched2
import Idealize.ShloMosaic.Lib.Pipeline.Value

noncomputable section

namespace Cert.KernelIdeal.S3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable def accAt (c : Dev nD) : (n : ℕ) → n < cfg3.N → Vec F S512x128 .f32
  | 0, hn => k3_pay2 (grid3.coords ⟨0, hn⟩) (iblk V c 0 ⟨0, hn⟩) (iblk V c 1 ⟨0, hn⟩) (k3_pay1 (F := F))
  | n + 1, hn =>
    if (n + 1) % 293 = 0 then
      k3_pay2 (grid3.coords ⟨n + 1, hn⟩) (iblk V c 0 ⟨n + 1, hn⟩) (iblk V c 1 ⟨n + 1, hn⟩) (k3_pay1 (F := F))
    else
      k3_pay2 (grid3.coords ⟨n + 1, hn⟩) (iblk V c 0 ⟨n + 1, hn⟩) (iblk V c 1 ⟨n + 1, hn⟩) (accAt c n (Nat.lt_of_succ_lt hn))

noncomputable def outAt (c : Dev nD) : (n : ℕ) → n < cfg3.N → Vec F S512x128 .f32 :=
  fun n hn => k3_pay3 (iblk V c 2 ⟨n, hn⟩) (accAt V c n hn) (iblk V c 3 ⟨n, hn⟩) (iblk V c 4 ⟨n, hn⟩)

theorem accAt_first (c : Dev nD) (t : Fin cfg3.N) (h : t.val % 293 = 0) :
    accAt V c t.val t.isLt = k3_pay2 (grid3.coords t) (iblk V c 0 t) (iblk V c 1 t) (k3_pay1 (F := F)) := by
  obtain ⟨n, hn⟩ := t
  cases n with
  | zero => rfl
  | succ n => exact (if_pos h).trans rfl

theorem accAt_next (c : Dev nD) (t : Fin cfg3.N) (h : ¬ t.val % 293 = 0) :
    accAt V c t.val t.isLt = k3_pay2 (grid3.coords t) (iblk V c 0 t) (iblk V c 1 t) (accAt V c (t.val - 1) (Nat.lt_of_le_of_lt (Nat.sub_le _ _) t.isLt)) := by
  obtain ⟨n, hn⟩ := t
  cases n with
  | zero => exact absurd (Nat.zero_mod _) h
  | succ n => exact (if_neg h).trans rfl

theorem outAt_last (c : Dev nD) (t : Fin cfg3.N) (h : t.val % 293 = 292) :
    outAt V c t.val t.isLt = k3_pay3 (iblk V c 2 t) (accAt V c t.val t.isLt) (iblk V c 3 t) (iblk V c 4 t) := rfl

/-- The invariant before position `n`: the accumulator at what position `n - 1` left (at anything before position 0). -/
noncomputable def PhiS (c : Dev nD) : (n : ℕ) → n ≤ cfg3.N → sProp 𝕄
  | 0, _ => Pipeline.ΦA spec3 c
  | n + 1, hn => iprop(iprop(owns (c : Thread nD τ) scM1 fullShare (accAt V c n hn) ∗ restBut1 (F := F) c) ∗ (∃ r, prngReg c r))

theorem PhiS_pos (c : Dev nD) (n : ℕ) (h : n ≤ cfg3.N) (hz : n ≠ 0) :
    PhiS V c n h = iprop(iprop(owns (c : Thread nD τ) scM1 fullShare (accAt V c (n - 1) (by omega)) ∗ restBut1 (F := F) c) ∗ (∃ r, prngReg c r)) := by
  cases n with
  | zero => exact absurd rfl hz
  | succ n => rfl

/-- At every position the invariant gives back what the call was handed: the accumulator's contents are forgotten. -/
theorem PhiS_out (c : Dev nD) (n : ℕ) (h : n ≤ cfg3.N) : PhiS V c n h ⊢ Pipeline.ΦA spec3 c := by
  cases n with
  | zero => exact Idealize.SL.BI.Entails.refl _
  | succ n =>
    rw [PhiS, PhiA1_eq]
    iintro ⟨⟨HS, Hr⟩, Hg⟩
    iframe Hr Hg
    iexists _; iexact HS

noncomputable def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t.val t.isLt
  Φ t := PhiS V c t.val (Nat.le_of_lt_succ t.isLt)
  q _ := fullShare
  owed _ := 0

theorem dat_A (c : Dev nD) (w : Fin cfg3.W) : (dat V c).A w = V c (Pipeline.arrRef spec3 w) := by
  dsimp only [dat]
theorem dat_share (c : Dev nD) : ∀ w, (dat V c).share w = fullShare := (dat V c).share_full fun _ => rfl
theorem dat_owed (c : Dev nD) (t) : (dat V c).owed t = 0 := rfl

theorem dat_after_in0 (c : Dev nD) (t : Fin cfg3.N) : (dat V c).after 0 t = iblk V c 0 t := by dsimp only [dat]
theorem dat_after_in1 (c : Dev nD) (t : Fin cfg3.N) : (dat V c).after 1 t = iblk V c 1 t := by dsimp only [dat]
theorem dat_after_in2 (c : Dev nD) (t : Fin cfg3.N) : (dat V c).after 2 t = iblk V c 2 t := by dsimp only [dat]
theorem dat_after_in3 (c : Dev nD) (t : Fin cfg3.N) : (dat V c).after 3 t = iblk V c 3 t := by dsimp only [dat]
theorem dat_after_in4 (c : Dev nD) (t : Fin cfg3.N) : (dat V c).after 4 t = iblk V c 4 t := by dsimp only [dat]
theorem dat_after_out (c : Dev nD) (t : Fin cfg3.N) : (dat V c).after 5 t = outAt V c t.val t.isLt := by dsimp only [dat]

/-- Before the body at any point each input holds its block there. -/
theorem before1_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before1_1 (c : Dev nD) (t : Fin cfg3.N) (d) : (dat V c).before 1 t d = iblk V c 1 t :=
  ((dat V c).before_in_eq_fetched 1 rfl (fun _ => rfl) (fun _ _ _ => rfl) (fun _ => rfl) t d).trans rfl
theorem before1_2 (c : Dev nD) (t : Fin cfg3.N) (d) : (dat V c).before 2 t d = iblk V c 2 t :=
  ((dat V c).before_in_eq_fetched 2 rfl (fun _ => rfl) (fun _ _ _ => rfl) (fun _ => rfl) t d).trans rfl
theorem before1_3 (c : Dev nD) (t : Fin cfg3.N) (d) : (dat V c).before 3 t d = iblk V c 3 t :=
  ((dat V c).before_in_eq_fetched 3 rfl (fun _ => rfl) (fun _ _ _ => rfl) (fun _ => rfl) t d).trans rfl
theorem before1_4 (c : Dev nD) (t : Fin cfg3.N) (d) : (dat V c).before 4 t d = iblk V c 4 t :=
  ((dat V c).before_in_eq_fetched 4 rfl (fun _ => rfl) (fun _ _ _ => rfl) (fun _ => rfl) t d).trans rfl

theorem leaves1_5 (c : Dev nD) (t : Fin cfg3.N) (h1 : cond1_1 (grid3.coords t)) :
    (dat V c).leavesExact 5 t = owns (c : Thread nD τ) (argsAt t).m5 fullShare (outAt V c t.val t.isLt) := by
  rw [← dat_after_out V c t]; unfold Dat.leavesExact; rw [liveAt1_5 (grid3.coords t) h1]

/-- The body at any point: the point's position on the reduction axis picks the run, and the invariant carries the accumulator from point to point. -/
theorem sound_body (c : Dev nD) (t : Fin cfg3.N) :
    iprop(PhiS V c t.val (Nat.le_of_lt t.isLt) ∗ (dat V c).owesAt () t.castSucc
      ∗ (∃ d, owns (c : Thread nD τ) (argsAt t).m0 fullShare ((dat V c).before 0 t d))
      ∗ (∃ d, owns (c : Thread nD τ) (argsAt t).m1 fullShare ((dat V c).before 1 t d))
      ∗ (∃ d, owns (c : Thread nD τ) (argsAt t).m2 fullShare ((dat V c).before 2 t d))
      ∗ (∃ d, owns (c : Thread nD τ) (argsAt t).m3 fullShare ((dat V c).before 3 t d))
      ∗ (∃ d, owns (c : Thread nD τ) (argsAt t).m4 fullShare ((dat V c).before 4 t d))
      ∗ (∃ d, owns (c : Thread nD τ) (argsAt t).m5 fullShare ((dat V c).before 5 t d)))
    ⊢ wp frame (wpE (defs₀ (F := F)) Variants.none c none) Set.univ ((argsAt t).body (grid3.coords t)) fun _ =>
      iprop(PhiS V c (t.val + 1) t.isLt ∗ (dat V c).owesAt () t.castSucc
        ∗ (argsAt t).ins c (iblk V c 0 t) (iblk V c 1 t) (iblk V c 2 t) (iblk V c 3 t) (iblk V c 4 t) ((dat V c).leavesExact 5 t)) := by
  simp only [before1_0, before1_1, before1_2, before1_3, before1_4]
  rw [PhiS]
  unfold Args.ins
  have hr := Sched.reset3_iff t
  have hl := Sched.last3_iff t
  by_cases h0 : t.val % 293 = 0
  case' pos =>
    have hc1 : ¬cond1_1 (grid3.coords t) := fun h => by have := hl.mp h; omega
    rw [accAt_first V c t h0, Dat.leavesExact_idle (dat V c) 5 t (idleAt1_5 _ hc1) (Bool.eq_false_iff.mpr fun hf => hc1 (hl.mpr ((Sched.flush3_out t).mp hf)))]
    refine (sep_mono_left (PhiS_out V c _ _)).trans ?_
    rw [PhiA1_eq]
    iintro ⟨⟨⟨⟨%xs, HS⟩, Hr⟩, Hg⟩, Ho, ⟨%d0, H0⟩, ⟨%d1, H1⟩, ⟨%d2, H2⟩, ⟨%d3, H3⟩, ⟨%d4, H4⟩, ⟨%d5, H5⟩⟩
    have R := run1 c (grid3.coords t) (argsAt t) (iblk V c 0 t) (iblk V c 1 t) (iblk V c 2 t) (iblk V c 3 t) (iblk V c 4 t) xs ((dat V c).before 5 t d5)
    unfold Runs Args.ins accNext at R
    rw [if_pos (hr.mpr h0), if_neg hc1] at R
  case' neg =>
    have hc0 : ¬cond1_0 (grid3.coords t) := fun h => h0 (hr.mp h)
    rw [accAt_next V c t h0, PhiS_pos V c _ _ (fun e => h0 (by rw [e]))]
    by_cases h1 : t.val % 293 = 292
    case' pos => rw [leaves1_5 V c t (hl.mpr h1), outAt_last V c t h1, accAt_next V c t h0]
    case' neg => rw [Dat.leavesExact_idle (dat V c) 5 t (idleAt1_5 _ fun h => h1 (hl.mp h)) (Bool.eq_false_iff.mpr fun hf => h1 ((Sched.flush3_out t).mp hf))]
    all_goals
      iintro ⟨⟨⟨HS, Hr⟩, Hg⟩, Ho, ⟨%d0, H0⟩, ⟨%d1, H1⟩, ⟨%d2, H2⟩, ⟨%d3, H3⟩, ⟨%d4, H4⟩, ⟨%d5, H5⟩⟩
      have R := run1 c (grid3.coords t) (argsAt t) (iblk V c 0 t) (iblk V c 1 t) (iblk V c 2 t) (iblk V c 3 t) (iblk V c 4 t) (accAt V c (t.val - 1) (Nat.lt_of_le_of_lt (Nat.sub_le _ _) t.isLt)) ((dat V c).before 5 t d5)
      unfold Runs Args.ins accNext at R
      first
        | rw [if_neg hc0, if_pos (hl.mpr h1)] at R
        | rw [if_neg hc0, if_neg fun h => h1 (hl.mp h)] at R
  all_goals
    iapply R Set.univ _
    iframe H0 H1 H2 H3 H4 H5 HS
    iintro ⟨H0, H1, H2, H3, H4, H5, HS⟩
    iframe HS Hr Hg Ho H0 H1 H2 H3 H4
    first | iexact H5 | (iexists _; iexact H5)

theorem body_obligation (c : Dev nD) : BodyObligation (dat (F := F) V c) (defs₀ (F := F)) Variants.none () Set.univ := fun t => by
  rw [bigSep_W3, bigSep_W3]
  exact sound_body V c t

theorem hin (c : Dev nD) : Pipeline.ΦA spec3 c ⊢ (dat V c).Φ 0 := Idealize.SL.BI.Entails.refl _

theorem hout (c : Dev nD) : (dat V c).Φ (Fin.last cfg3.N) ⊢ Pipeline.ΦA spec3 c :=
  PhiS_out V c _ (Nat.le_of_lt_succ (Fin.last cfg3.N).isLt)

end Cert.KernelIdeal.S3

end
-- ==== Proof.KI.Frames.lean ====
import proofs.«421167_j1614907703321_1_alg».proof.Proof.KI.Whole
import proofs.«421167_j1614907703321_1_alg».proof.Proof.KI.G0Frame
import proofs.«421167_j1614907703321_1_alg».proof.Proof.KI.S1Frame
import proofs.«421167_j1614907703321_1_alg».proof.Proof.KI.G2Frame
import proofs.«421167_j1614907703321_1_alg».proof.Proof.KI.S3Frame

noncomputable section

namespace Cert.KernelIdeal.Frames

open Cert.KernelIdeal Cert.KernelIdeal.Gen Idealize.ShloMosaic Idealize.ShloMosaic.TcCoe Idealize.SL.Sem

variable {F : FTy → Type} [FloatOps F]

def gather1 : Whole.RegionData (F := F) cfg0 :=
  ⟨G0.dat, fun V => ⟨G0.dat_A V, G0.dat_share V, G0.dat_owed V, fun _ => rfl, G0.body_obligation V, G0.hin V, G0.hout V⟩⟩
def scatter1 : Whole.RegionData (F := F) cfg1 :=
  ⟨S1.dat, fun V => ⟨S1.dat_A V, S1.dat_share V, S1.dat_owed V, fun _ => rfl, S1.body_obligation V, S1.hin V, S1.hout V⟩⟩
def gather2 : Whole.RegionData (F := F) cfg2 :=
  ⟨G2.dat, fun V => ⟨G2.dat_A V, G2.dat_share V, G2.dat_owed V, fun _ => rfl, G2.body_obligation V, G2.hin V, G2.hout V⟩⟩
def scatter2 : Whole.RegionData (F := F) cfg3 :=
  ⟨S3.dat, fun V => ⟨S3.dat_A V, S3.dat_share V, S3.dat_owed V, fun _ => rfl, S3.body_obligation V, S3.hin V, S3.hout V⟩⟩

variable (m : (ℓ : Loc nD τ sig) → Buf (Elt F) ℓ) (ρ : Dev nD → PrngReg)

/-- Core c's unscoped buffers when @main returns. -/
abbrev atEnd (c : Dev nD) : Valuation τ sig (Elt F) := Whole.B13 gather1 scatter1 gather2 scatter2 m c

theorem run : θ_run defs (onTc (τ := τ) (main (F := F))) ⟨m, fun _ => 0, ρ⟩
    (fun r => ∀ c : Dev nD, ∀ b ∈ Pipeline.ucRefs τ sig, r.2.mem (((c : Thread nD τ)).1, b) = atEnd m c b) :=
  Whole.run_all gather1 scatter1 gather2 scatter2 m ρ

/-- The arguments end as launched: each is unscoped and kept. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have arg (b : Ref sig .tc) (hs : ¬ (Proc.devRef .tc b : DevRef τ sig).isScoped) (hk : Whole.Kept b) :
        r.2.mem ((c.tc : Thread nD τ).loc b) = m ((c.tc : Thread nD τ).loc b) :=
      (h c _ (Whole.mem_uc b hs)).trans (Whole.B13_launch gather1 scatter1 gather2 scatter2 m c b hk)
    ⟨arg main_arg0 (by decide) (by decide), arg main_arg1 (by decide) (by decide), arg main_arg2 (by decide) (by decide),
      arg main_arg3 (by decide) (by decide), arg main_arg4 (by decide) (by decide), arg main_arg5 (by decide) (by decide),
      arg main_arg6 (by decide) (by decide)⟩)
    (run m ρ)

end Cert.KernelIdeal.Frames

end
-- ==== Proof.Spec.lean ====
import Idealize.ShloMosaic.PureOps.Ideal
import Mathlib.Algebra.BigOperators.Fin

noncomputable section

namespace Gcn

open Idealize.ShloMosaic
open scoped BigOperators

abbrev EP : Nat := 600064
abbrev NP : Nat := 50176
abbrev E : Nat := 600000
abbrev N : Nat := 50000

theorem node_lt (j : Fin 98) (n : Fin 512) : j.val * 512 + n.val < NP := by
  have := j.isLt; have := n.isLt; show _ < 50176; omega
theorem edge_lt (k : Fin 293) (e : Fin 2048) : k.val * 2048 + e.val < EP := by
  have := k.isLt; have := e.isLt; show _ < 600064; omega

def nodeOf (j : Fin 98) (n : Fin 512) : Fin NP := ⟨j.val * 512 + n.val, node_lt j n⟩
def edgeOf (k : Fin 293) (e : Fin 2048) : Fin EP := ⟨k.val * 2048 + e.val, edge_lt k e⟩

/-- The selector entry: one when the word is node number `n`, else zero. -/
def hot (w : BitVec 32) (n : Nat) : EReal := if w = BitVec.ofNat 32 n then 1 else 0

def gatherRows (idx : Fin EP → BitVec 32) (h : Fin NP → Fin 128 → EReal) (nrm : Fin NP → EReal) :
    Fin EP → Fin 128 → EReal :=
  fun e d => ∑ j : Fin 98, ∑ n : Fin 512, hot (idx e) (nodeOf j n).val * (h (nodeOf j n) d * nrm (nodeOf j n))

def scatterAcc (idx : Fin EP → BitVec 32) (msgs : Fin EP → Fin 128 → EReal) : Fin NP → Fin 128 → EReal :=
  fun n d => ∑ k : Fin 293, ∑ e : Fin 2048, hot (idx (edgeOf k e)) n.val * msgs (edgeOf k e) d

def dense (acc : Fin NP → Fin 128 → EReal) (nrm : Fin NP → EReal) (W : Fin 128 → Fin 128 → EReal)
    (b : Fin 128 → EReal) : Fin NP → Fin 128 → EReal :=
  fun n d => (∑ k : Fin 128, (acc n k * nrm n) * W k d) + b d

def padRows (x : Fin N → Fin 128 → EReal) : Fin NP → Fin 128 → EReal :=
  fun n d => if h : n.val < N then x ⟨n.val, h⟩ d else 0
def padVec (x : Fin N → EReal) : Fin NP → EReal := fun n => if h : n.val < N then x ⟨n.val, h⟩ else 0
def padIdx (x : Fin E → BitVec 32) : Fin EP → BitVec 32 := fun e => if h : e.val < E then x ⟨e.val, h⟩ else 4294967295#32

/-- Two layers computed on padded arrays by selector products, tile by tile. -/
def tiledOut (feat : Fin N → Fin 128 → EReal) (src dst : Fin E → BitVec 32) (nrm : Fin N → EReal)
    (W0 : Fin 128 → Fin 128 → EReal) (b0 : Fin 128 → EReal) (W1 : Fin 128 → Fin 128 → EReal) (b1 : Fin 128 → EReal) :
    Fin N → Fin 128 → EReal :=
  let m0 := gatherRows (padIdx src) (padRows feat) (padVec nrm)
  let h1 : Fin NP → Fin 128 → EReal := fun n d => max (dense (scatterAcc (padIdx dst) m0) (padVec nrm) W0 b0 n d) 0
  let m1 := gatherRows (padIdx src) h1 (padVec nrm)
  let h2 := dense (scatterAcc (padIdx dst) m1) (padVec nrm) W1 b1
  fun n d => h2 ⟨n.val, Nat.lt_trans n.isLt (by decide)⟩ d

def rowOf (w : BitVec 32) : Fin N :=
  let v : Int := if w.toInt < 0 then (w + 50000#32).toInt else w.toInt
  ⟨min v.toNat (N - 1), by show min _ 49999 < 50000; omega⟩

def refLayer (h : Fin N → Fin 128 → EReal) (src dst : Fin E → BitVec 32) (nrm : Fin N → EReal)
    (W : Fin 128 → Fin 128 → EReal) (b : Fin 128 → EReal) : Fin N → Fin 128 → EReal :=
  fun n d => (∑ k : Fin 128,
      ((0 + ∑ e ∈ Finset.univ.filter (fun e : Fin E => (dst e).toInt = (n.val : Int)),
          h (rowOf (src e)) k * nrm (rowOf (src e))) * nrm n) * W k d) + b d

/-- Two layers computed by direct indexing and scatter-add. -/
def directOut (feat : Fin N → Fin 128 → EReal) (src dst : Fin E → BitVec 32) (nrm : Fin N → EReal)
    (W0 : Fin 128 → Fin 128 → EReal) (b0 : Fin 128 → EReal) (W1 : Fin 128 → Fin 128 → EReal) (b1 : Fin 128 → EReal) :
    Fin N → Fin 128 → EReal :=
  refLayer (fun n d => max (refLayer feat src dst nrm W0 b0 n d) 0) src dst nrm W1 b1

end Gcn

end
-- ==== Proof.KI.HostRead.lean ====
import proofs.«421167_j1614907703321_1_alg».proof.Proof.Gen.KernelIdeal.Regions
import proofs.«421167_j1614907703321_1_alg».proof.Proof.Spec
import Idealize.ShloMosaic.Lib.KernelVsHost
import Idealize.ShloMosaic.Lib.ValueIdx
import Idealize.ShloMosaic.Lib.StableHlo.Run

noncomputable section

namespace Cert.KernelIdeal.HostRead

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

abbrev feat (c : Dev nD) : FVec Ideal S50000x128 .f32 := m ((c : Thread nD τ).loc main_arg0)
abbrev srcW (c : Dev nD) : IVec S600000 32 := m ((c : Thread nD τ).loc main_arg1)
abbrev dstW (c : Dev nD) : IVec S600000 32 := m ((c : Thread nD τ).loc main_arg2)
/-- The per-node scale as the first host stretch leaves it. -/
abbrev scale (c : Dev nD) : FVec Ideal S50000 .f32 := V1 m c main_v6

/-- A vector padded behind, read at an index: the vector inside its extent, the padding value past it. -/
theorem pad_back_apply {α : Type} {n n' : ℕ} (p : ℕ) (x : (⟨1, ![n]⟩ : Shape).Idx → α) {u : Shape} (v : u.Idx → α)
    (hp : (⟨1, ![n]⟩ : Shape).Pads (![0] : Fin 1 → ℕ) ![p] ![0] ⟨1, ![n']⟩) (hu : 0 < u.numel) (j : Fin n') :
    pad ⟨1, ![n']⟩ ![0] ![p] ![0] x v hp hu (ix1 j) = if h : j.val < n then x (ix1 ⟨j.val, h⟩) else v (Shape.Idx.first hu) := by
  by_cases h : j.val < n
  · rw [dif_pos h]
    exact pad_apply_of_inside _ _ _ x v hp hu _ (ix1 ⟨j.val, h⟩) fun a => by
      obtain rfl : a = 0 := Subsingleton.elim _ _
      show j.val = 0 + j.val * (0 + 1); omega
  · rw [dif_neg h]
    exact pad_apply_of_not_inside _ _ _ x v hp hu _ (0 : Fin 1) fun hin => h (by
      have := hin.2.2
      change (j.val - 0) / (0 + 1) < n at this
      omega)

theorem entry_feat_apply (c : Dev nD) (n : Fin 50176) (d : Fin 128) :
    (V8 m c main_v7 : FVec Ideal S50176x128 .f32) (ix2 n d) = Gcn.padRows (fun n d => feat m c (ix2 n d)) n d := by
  rw [V8_of m c main_v7 (by decide), V7_of m c main_v7 (by decide), V6_of m c main_v7 (by decide), V5_of m c main_v7 (by decide),
    V4_of m c main_v7 (by decide), V3_of m c main_v7 (by decide)]
  show (StableHlo.after hostOps0_1 (V1 m c) (Proc.devRef .tc main_v7) : FVec Ideal S50176x128 .f32) (ix2 n d) = _
  after_results
  unfold Gcn.padRows
  by_cases h : n.val < Gcn.N
  · rw [dif_pos h]
    refine pad_apply_of_inside _ ![176, 0] _ _ _ pads_S50000x128_S50176x128_01760_000 _ (ix2 n d) (ix2 ⟨n.val, h⟩ d) (fun a => ?_)
    match a with
    | ⟨0, _⟩ => show n.val = 0 + n.val * (0 + 1); omega
    | ⟨1, _⟩ => show d.val = 0 + d.val * (0 + 1); omega
  · rw [dif_neg h]
    refine (pad_apply_of_not_inside _ ![176, 0] _ _ _ pads_S50000x128_S50176x128_01760_000 _ (ix2 n d) (0 : Fin 2) (fun hh => h ?_)).trans
      (sitofp_zero : Scalar.sitofp (F := Ideal) .f32 (0#32) = 0)
    have := hh.2.2
    change (n.val - 0) / (0 + 1) < 50000 at this
    show n.val < 50000
    omega

/-- The padded scale, over the scale as the first stretch left it. -/
theorem entry_scale_apply (c : Dev nD) (n : Fin 50176) :
    (V8 m c main_v8 : FVec Ideal S50176 .f32) (ix1 n) = Gcn.padVec (fun n => scale m c (ix1 n)) n := by
  have hc : V3 m c main_c_2 = constantI S_ 32 0#32 := by
    show StableHlo.after hostOps0_2 (V2 m c) (Proc.devRef .tc main_c_2) = _
    rw [after_cons, after_nil, nullary_result]
  rw [V8_of m c main_v8 (by decide), V7_of m c main_v8 (by decide), V6_of m c main_v8 (by decide), V5_of m c main_v8 (by decide)]
  show (StableHlo.after hostOps0_3 (V3 m c) (Proc.devRef .tc main_v8) : FVec Ideal S50176 .f32) (ix1 n) = _
  rw [after_cons, after_cons, after_nil, binary_result, unary_result, unary_result_ne _ _ _ _ _ _ (by decide),
    V3_of m c main_v6 (by decide), V2_of m c main_v6 (by decide), hc]
  exact (pad_back_apply 176 _ _ pads_S50000_S50176_01760 _ n).trans
    (dite_congr rfl (fun _ => rfl) fun _ => (sitofp_zero : Scalar.sitofp (F := Ideal) .f32 (0#32) = 0))

theorem entry_src_apply (c : Dev nD) (e : Fin 600064) :
    (V8 m c main_v9 : IVec S600064 32) (ix1 e) = Gcn.padIdx (fun e => srcW m c (ix1 e)) e := by
  rw [V8_of m c main_v9 (by decide), V7_of m c main_v9 (by decide)]
  show (StableHlo.after hostOps0_5 (V5 m c) (Proc.devRef .tc main_v9) : IVec S600064 32) (ix1 e) = _
  after_results
  exact (pad_back_apply 64 _ _ pads_S600000_S600064_0640 _ e).trans rfl

theorem entry_dst_apply (c : Dev nD) (e : Fin 600064) :
    (V8 m c main_v10 : IVec S600064 32) (ix1 e) = Gcn.padIdx (fun e => dstW m c (ix1 e)) e := by
  show (StableHlo.after hostOps0_7 (V7 m c) (Proc.devRef .tc main_v10) : IVec S600064 32) (ix1 e) = _
  after_results
  exact (pad_back_apply 64 _ _ pads_S600000_S600064_0640 _ e).trans rfl

end Cert.KernelIdeal.HostRead

end
-- ==== Proof.KI.Final.lean ====
import proofs.«421167_j1614907703321_1_alg».proof.Proof.KI.Whole
import proofs.«421167_j1614907703321_1_alg».proof.Proof.KI.HostRead
import proofs.«421167_j1614907703321_1_alg».proof.Proof.Spec
import Idealize.ShloMosaic.Lib.ValueLayout
import Idealize.ShloMosaic.Lib.ValueIdx

noncomputable section

namespace Cert.KernelIdeal.Final

open Cert.KernelIdeal Cert.KernelIdeal.Gen Idealize.ShloMosaic Idealize.ShloMosaic.TcCoe Idealize.ShloMosaic.ValueIdx Idealize.SL.Sem
open Cert.KernelIdeal.Whole

variable (R0 : RegionData (F := Ideal) cfg0) (R1 : RegionData (F := Ideal) cfg1) (R2 : RegionData (F := Ideal) cfg2)
  (R3 : RegionData (F := Ideal) cfg3) (m : (ℓ : Loc nD τ sig) → Buf (Elt Ideal) ℓ)

abbrev featF (c : Dev nD) : Fin Gcn.N → Fin 128 → EReal := fun n d => HostRead.feat m c (ix2 n d)
abbrev srcF (c : Dev nD) : Fin Gcn.E → BitVec 32 := fun e => HostRead.srcW m c (ix1 e)
abbrev dstF (c : Dev nD) : Fin Gcn.E → BitVec 32 := fun e => HostRead.dstW m c (ix1 e)
abbrev nrmF (c : Dev nD) : Fin Gcn.N → EReal := fun n => HostRead.scale m c (ix1 n)
abbrev w0F (c : Dev nD) : Fin 128 → Fin 128 → EReal := fun k d => (m ((c : Thread nD τ).loc main_arg3) : FVec Ideal S128x128 .f32) (ix2 k d)
abbrev b0F (c : Dev nD) : Fin 128 → EReal := fun d => (m ((c : Thread nD τ).loc main_arg4) : FVec Ideal S128 .f32) (ix1 d)
abbrev w1F (c : Dev nD) : Fin 128 → Fin 128 → EReal := fun k d => (m ((c : Thread nD τ).loc main_arg5) : FVec Ideal S128x128 .f32) (ix2 k d)
abbrev b1F (c : Dev nD) : Fin 128 → EReal := fun d => (m ((c : Thread nD τ).loc main_arg6) : FVec Ideal S128 .f32) (ix1 d)

theorem e0_src (c : Dev nD) : (fun e : Fin Gcn.EP => (entry0 m c main_v9 : IVec S600064 32) (ix1 e)) = Gcn.padIdx (srcF m c) :=
  funext fun e => HostRead.entry_src_apply m c e
theorem e0_dst (c : Dev nD) : (fun e : Fin Gcn.EP => (entry0 m c main_v10 : IVec S600064 32) (ix1 e)) = Gcn.padIdx (dstF m c) :=
  funext fun e => HostRead.entry_dst_apply m c e
theorem e0_feat (c : Dev nD) : (fun (n : Fin Gcn.NP) (d : Fin 128) => (entry0 m c main_v7 : FVec Ideal S50176x128 .f32) (ix2 n d)) = Gcn.padRows (featF m c) :=
  funext fun n => funext fun d => HostRead.entry_feat_apply m c n d
theorem e0_nrm (c : Dev nD) : (fun n : Fin Gcn.NP => (entry0 m c main_v8 : FVec Ideal S50176 .f32) (ix1 n)) = Gcn.padVec (nrmF m c) :=
  funext fun n => HostRead.entry_scale_apply m c n

/-- An array no region writes holds, at every later region's entry, what it held at the first region's entry; -/
theorem keep1 (c : Dev nD) (b : Ref sig .tc) (h0 : ∀ w : Fin 4, Pipeline.arrRef spec0 w = b → (cfg0.win w).isOut = false) :
    entry1 R0 m c b = entry0 m c b := B9_same R0 m c b h0
theorem keep2 (c : Dev nD) (b : Ref sig .tc) (h0 : ∀ w : Fin 4, Pipeline.arrRef spec0 w = b → (cfg0.win w).isOut = false)
    (h1 : ∀ w : Fin 6, Pipeline.arrRef spec1 w = b → (cfg1.win w).isOut = false) : entry2 R0 R1 m c b = entry0 m c b :=
  (B10_same R0 R1 m c b h1).trans (B9_same R0 m c b h0)
theorem keep3 (c : Dev nD) (b : Ref sig .tc) (h0 : ∀ w : Fin 4, Pipeline.arrRef spec0 w = b → (cfg0.win w).isOut = false)
    (h1 : ∀ w : Fin 6, Pipeline.arrRef spec1 w = b → (cfg1.win w).isOut = false)
    (h2 : ∀ w : Fin 4, Pipeline.arrRef spec2 w = b → (cfg2.win w).isOut = false) : entry3 R0 R1 R2 m c b = entry0 m c b :=
  (B11_same R0 R1 R2 m c b h2).trans (keep2 R0 R1 m c b h0 h1)
/-- and an argument nothing wrote before the first region is still the argument. -/
theorem arg0 (c : Dev nD) (b : Ref sig .tc) (h : b ∉ hostW) : entry0 m c b = m ((c : Thread nD τ).loc b) := B8_launch m c b h

variable
  (out0 : ∀ (V : EV (F := Ideal)) (c : Dev nD) (e : Fin 600064) (d : Fin 128), (R0.dat V c).arrAt 3 cfg0.N (ix2 e d)
      = Gcn.gatherRows (fun e => V c main_v9 (ix1 e)) (fun n d => V c main_v7 (ix2 n d)) (fun n => V c main_v8 (ix1 n)) e d)
  (out1 : ∀ (V : EV (F := Ideal)) (c : Dev nD) (n : Fin 50176) (d : Fin 128), (R1.dat V c).arrAt 5 cfg1.N (ix2 n d)
      = max (Gcn.dense (Gcn.scatterAcc (fun e => V c main_v10 (ix1 e)) (fun e d => V c main_v11 (ix2 e d)))
          (fun n => V c main_v8 (ix1 n)) (fun k d => V c main_arg3 (ix2 k d)) (fun d => V c main_arg4 (ix1 d)) n d) 0)
  (out2 : ∀ (V : EV (F := Ideal)) (c : Dev nD) (e : Fin 600064) (d : Fin 128), (R2.dat V c).arrAt 3 cfg2.N (ix2 e d)
      = Gcn.gatherRows (fun e => V c main_v9 (ix1 e)) (fun n d => V c main_v12 (ix2 n d)) (fun n => V c main_v8 (ix1 n)) e d)
  (out3 : ∀ (V : EV (F := Ideal)) (c : Dev nD) (n : Fin 50176) (d : Fin 128), (R3.dat V c).arrAt 5 cfg3.N (ix2 n d)
      = Gcn.dense (Gcn.scatterAcc (fun e => V c main_v10 (ix1 e)) (fun e d => V c main_v13 (ix2 e d)))
          (fun n => V c main_v8 (ix1 n)) (fun k d => V c main_arg5 (ix2 k d)) (fun d => V c main_arg6 (ix1 d)) n d)

abbrev msgs1 (c : Dev nD) : Fin Gcn.EP → Fin 128 → EReal :=
  Gcn.gatherRows (Gcn.padIdx (srcF m c)) (Gcn.padRows (featF m c)) (Gcn.padVec (nrmF m c))
abbrev hidden (c : Dev nD) : Fin Gcn.NP → Fin 128 → EReal :=
  fun n d => max (Gcn.dense (Gcn.scatterAcc (Gcn.padIdx (dstF m c)) (msgs1 m c)) (Gcn.padVec (nrmF m c)) (w0F m c) (b0F m c) n d) 0
abbrev msgs2 (c : Dev nD) : Fin Gcn.EP → Fin 128 → EReal :=
  Gcn.gatherRows (Gcn.padIdx (srcF m c)) (hidden m c) (Gcn.padVec (nrmF m c))

include out0 in
theorem e1_msgs (c : Dev nD) : (fun (e : Fin Gcn.EP) (d : Fin 128) => (entry1 R0 m c main_v11 : FVec Ideal S600064x128 .f32) (ix2 e d)) = msgs1 m c := by
  funext e d
  rw [show entry1 R0 m c main_v11 = (R0.dat (entry0 m) c).arrAt 3 cfg0.N from B9_arr R0 m c 3, out0, e0_src, e0_feat, e0_nrm]

include out0 out1 in
theorem e2_hidden (c : Dev nD) : (fun (n : Fin Gcn.NP) (d : Fin 128) => (entry2 R0 R1 m c main_v12 : FVec Ideal S50176x128 .f32) (ix2 n d)) = hidden m c := by
  funext n d
  rw [show entry2 R0 R1 m c main_v12 = (R1.dat (entry1 R0 m) c).arrAt 5 cfg1.N from B10_arr R0 R1 m c 5, out1,
    keep1 R0 m c main_v10 (by decide), e0_dst, e1_msgs R0 m out0, keep1 R0 m c main_v8 (by decide), e0_nrm,
    keep1 R0 m c main_arg3 (by decide), arg0 m c main_arg3 (by decide), keep1 R0 m c main_arg4 (by decide), arg0 m c main_arg4 (by decide)]

include out0 out1 out2 in
theorem e3_msgs (c : Dev nD) : (fun (e : Fin Gcn.EP) (d : Fin 128) => (entry3 R0 R1 R2 m c main_v13 : FVec Ideal S600064x128 .f32) (ix2 e d)) = msgs2 m c := by
  funext e d
  rw [show entry3 R0 R1 R2 m c main_v13 = (R2.dat (entry2 R0 R1 m) c).arrAt 3 cfg2.N from B11_arr R0 R1 R2 m c 3, out2,
    keep2 R0 R1 m c main_v9 (by decide) (by decide), e0_src, e2_hidden R0 R1 m out0 out1, keep2 R0 R1 m c main_v8 (by decide) (by decide), e0_nrm]

include out0 out1 out2 out3 in
/-- Chaining the four regions: what the program returns is `Gcn.tiledOut` of its arguments. -/
theorem value (c : Dev nD) (n : Fin Gcn.N) (d : Fin 128) :
    (B13 R0 R1 R2 R3 m c (Proc.devRef .tc main_v15) : FVec Ideal S50000x128 .f32) (ix2 n d)
      = Gcn.tiledOut (featF m c) (srcF m c) (dstF m c) (nrmF m c) (w0F m c) (b0F m c) (w1F m c) (b1F m c) n d := by
  have hlt : n.val < 50176 := Nat.lt_trans n.isLt (by decide)
  rw [B13_main_v15, slice2_axis0_apply 0 _ _ n d ⟨n.val, hlt⟩ (Nat.zero_add _).symm,
    show B12 R0 R1 R2 R3 m c (Proc.devRef .tc main_v14) = (R3.dat (entry3 R0 R1 R2 m) c).arrAt 5 cfg3.N from B12_arr R0 R1 R2 R3 m c 5, out3,
    keep3 R0 R1 R2 m c main_v10 (by decide) (by decide) (by decide), e0_dst, e3_msgs R0 R1 R2 m out0 out1 out2,
    keep3 R0 R1 R2 m c main_v8 (by decide) (by decide) (by decide), e0_nrm,
    keep3 R0 R1 R2 m c main_arg5 (by decide) (by decide) (by decide), arg0 m c main_arg5 (by decide),
    keep3 R0 R1 R2 m c main_arg6 (by decide) (by decide) (by decide), arg0 m c main_arg6 (by decide)]
  rfl

end Cert.KernelIdeal.Final

end
-- ==== Proof.KI.Pay.lean ====
import proofs.«421167_j1614907703321_1_alg».proof.Proof.Gen.KernelIdeal.Skeleton
import proofs.«421167_j1614907703321_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-- Multiplying and adding 32-bit words agrees with the numbers: node `n` of tile `j` is `j * 512 + n`. -/
theorem node_word (j n : Nat) :
    IntOp.addi (Scalar.muli (BitVec.ofNat 32 j) 512#32) (BitVec.ofNat 32 n) = BitVec.ofNat 32 (j * 512 + n) := by
  show BitVec.ofNat 32 j * 512#32 + BitVec.ofNat 32 n = BitVec.ofNat 32 (j * 512 + n)
  rw [BitVec.ofNat_add, BitVec.ofNat_mul]

/-- An equality test of two words, read as a real number, is the indicator of their agreement. -/
theorem onehot_word (w s : BitVec 32) :
    (FloatOps.sitofp (F := Ideal) .f32 ((IntOp.cmpi .eq w s).setWidth 32) : EReal) = if w = s then 1 else 0 := by
  show ((((BitVec.ofBool (w == s)).setWidth 32).toInt : ℝ) : EReal) = _
  by_cases h : w = s
  · rw [beq_iff_eq.mpr h, if_pos h, show ((BitVec.ofBool true).setWidth 32).toInt = 1 from by decide, Int.cast_one, EReal.coe_one]
  · rw [beq_eq_false_iff_ne.mpr h, if_neg h, show ((BitVec.ofBool false).setWidth 32).toInt = 0 from by decide, Int.cast_zero,
      EReal.coe_zero]

theorem onehot_apply {s : Shape} (x y : IVec s 32) (h : 1 < 32) (hb : FTy.bits .bf16 < FTy.bits .f32) (q : s.Idx) :
    (truncf .bf16 (sitofp .f32 (extui 32 (cmpi .eq x y) h)) hb : FVec Ideal s .bf16) q = if x q = y q then 1 else 0 :=
  onehot_word (x q) (y q)

theorem scalar_zero : (Scalar.ofBits (F := Ideal) .f32 0x00000000#32 : EReal) = 0 :=
  Ideal.ofBits_zero_f32

section Layout
variable {α : Type}

/-- Spreading a vector along the columns of a matrix repeats its entry `p` all along row `p`. -/
theorem column_apply {a b : ℕ} (x : (⟨1, ![a]⟩ : Shape).Idx → α) (h1 : (⟨1, ![a]⟩ : Shape).ShapeCasts ⟨1, ![a]⟩)
    (h2 : (⟨1, ![a]⟩ : Shape).ShapeCasts ⟨2, ![a, 1]⟩) (h3 : (⟨2, ![a, 1]⟩ : Shape).Broadcasts ⟨2, ![a, b]⟩)
    (p : Fin a) (c : Fin b) :
    broadcastTo ⟨2, ![a, b]⟩ (shapeCast ⟨2, ![a, 1]⟩ (shapeCast ⟨1, ![a]⟩ x h1) h2) h3 (ix2 p c) = x (ix1 p) := by
  refine (broadcastTo_apply _ h3 (ix2 p c) (ix2 p (0 : Fin 1)) fun ax => ?_).trans
    ((shapeCast_apply _ h2 _ (ix1 p) ?_).trans (congrFun (shapeCast_self x h1) (ix1 p)))
  · match ax with
    | ⟨0, _⟩ =>
      show p.val = if a = 1 then 0 else p.val
      split
      · have := p.isLt; omega
      · rfl
    | ⟨1, _⟩ => rfl
  · rw [Shape.rowMajor_val_two, Shape.rowMajor_val_one]
    show p.val = p.val * 1 + 0
    rw [Nat.mul_one, Nat.add_zero]

/-- Spreading a vector along the rows of a matrix repeats its entry `c` all down column `c`. -/
theorem row_apply {a b : ℕ} (x : (⟨1, ![b]⟩ : Shape).Idx → α) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ x h2) h3 (ix2 p c) = x (ix1 c) :=
  (broadcastTo_1b_ab_apply _ h3 p c).trans (shapeCast_a_1a_apply x h2 0 c)

end Layout

/-- The matrix whose entry is `j * 512` plus the entry's own coordinate on axis `ax`. -/
theorem tileWords_apply {a b : ℕ} (j : Nat) (ax : Fin 2) (h : (⟨2, ![a, b]⟩ : Shape).Iotas .tc 32 [ax]) (q : (⟨2, ![a, b]⟩ : Shape).Idx) :
    addi (broadcast ⟨2, ![a, b]⟩ (Scalar.muli (BitVec.ofNat 32 j) 512#32)) (iota .tc ⟨2, ![a, b]⟩ 32 [ax] h) q
      = BitVec.ofNat 32 (j * 512 + (q ax).val) := by
  show IntOp.addi (Scalar.muli (BitVec.ofNat 32 j) 512#32) (iota .tc ⟨2, ![a, b]⟩ 32 [ax] h q) = _
  rw [iota_single_apply]
  exact node_word j (q ax).val

/-- A plain matrix product into a zero accumulator, at an entry: the sum over the contracted coordinate. -/
theorem matmul_plain_apply {M K N : ℕ} (lhs : FVec Ideal ⟨2, ![M, K]⟩ .bf16) (rhs : FVec Ideal ⟨2, ![K, N]⟩ .bf16) (r : Fin M) (d : Fin N) :
    matmul (DotDims.plain M K N) none lhs rhs (constant (F := Ideal) ⟨2, ![M, N]⟩ .f32 0x00000000#32) (ix2 r d)
      = ∑ k : Fin K, lhs (ix2 r k) * rhs (ix2 k d) := by
  refine (Ideal.matmul_constant_zero_apply (DotDims.plain M K N) none lhs rhs (ix2 r d)).trans ?_
  refine (Equiv.sum_comp (contrEquiv1 (DotDims.plain M K N) K rfl rfl).symm _).symm.trans ?_
  refine Finset.sum_congr rfl fun k _ => ?_
  have hk := contrEquiv1_symm_val (DotDims.plain M K N) K rfl rfl k
  refine congrArg₂ (fun a b : EReal => a * b) (congrArg lhs ?_) (congrArg rhs ?_)
  · funext a; refine Fin.ext ?_
    match a with
    | ⟨0, _⟩ => rfl
    | ⟨1, _⟩ => exact ((DotDims.plain M K N).lhsIdx_val_of_single rfl _ _).trans hk
  · funext a; refine Fin.ext ?_
    match a with
    | ⟨0, _⟩ => exact ((DotDims.plain M K N).rhsIdx_val_of_single rfl _ _).trans hk
    | ⟨1, _⟩ => rfl

theorem k0_pay1_apply (y : S2048x128.Idx) : k0_pay1 (F := Ideal) y = 0 := by
  unfold k0_pay1
  exact (congrFun (shapeCast_self _ _) y).trans scalar_zero

/-- The gather body at `(r, d)`: the old entry plus, over the tile's nodes `n`, [edge `r` names `n`] · (row `n` at `d` · scale `n`). -/
theorem k0_pay2_apply (i : grid0.Coords) (v7 : Vec Ideal S2048 .i32) (v15 : Vec Ideal S512 .f32) (v18 : Vec Ideal S512x128 .f32)
    (v23 : Vec Ideal S2048x128 .f32) (r : Fin 2048) (d : Fin 128) :
    k0_pay2 i v7 v15 v18 v23 (ix2 r d)
      = v23 (ix2 r d) + ∑ n : Fin 512, Gcn.hot (v7 (ix1 r)) ((i 1).val * 512 + n.val) * (v18 (ix2 n d) * v15 (ix1 n)) := by
  unfold k0_pay2
  refine (congrFun (shapeCast_self _ _) (ix2 r d)).trans ((addf_apply (φ := .f32) _ _ _).trans ?_)
  refine congrArg (fun z : EReal => v23 (ix2 r d) + z) ((matmul_plain_apply (M := 2048) (K := 512) (N := 128) _ _ r d).trans ?_)
  refine Finset.sum_congr rfl fun n _ => congrArg₂ (fun a b : EReal => a * b) ?_ ?_
  · exact (onehot_apply _ _ _ _ _).trans (congrArg₂ (fun a b : BitVec 32 => if a = b then (1 : EReal) else 0)
      (column_apply v7 _ _ _ r n) (tileWords_apply (i 1).val 1 _ (ix2 r n)))
  · refine (truncf_apply (φ := .f32) (ψ := .bf16) _ _ _).trans ((mulf_apply (φ := .f32) _ _ _).trans ?_)
    exact congrArg₂ (fun a b : EReal => a * b) (congrFun (shapeCast_self v18 _) (ix2 n d)) (column_apply v15 _ _ _ n d)

theorem k1_pay1_apply (y : S512x128.Idx) : k1_pay1 (F := Ideal) y = 0 := by
  unfold k1_pay1
  exact (congrFun (shapeCast_self _ _) y).trans scalar_zero

/-- The scatter body at `(r, d)`: the old entry plus, over the tile's edges `e`, [edge `e` names node `r`] · message `e` at `d`. -/
theorem k1_pay2_apply (i : grid1.Coords) (v7 : Vec Ideal S2048 .i32) (v15 : Vec Ideal S2048x128 .f32) (v18 : Vec Ideal S512x128 .f32)
    (r : Fin 512) (d : Fin 128) :
    k1_pay2 i v7 v15 v18 (ix2 r d)
      = v18 (ix2 r d) + ∑ e : Fin 2048, Gcn.hot (v7 (ix1 e)) ((i 0).val * 512 + r.val) * v15 (ix2 e d) := by
  unfold k1_pay2
  refine (congrFun (shapeCast_self _ _) (ix2 r d)).trans ((addf_apply (φ := .f32) _ _ _).trans ?_)
  refine congrArg (fun z : EReal => v18 (ix2 r d) + z) ((matmul_plain_apply (M := 512) (K := 2048) (N := 128) _ _ r d).trans ?_)
  refine Finset.sum_congr rfl fun e _ => congrArg₂ (fun a b : EReal => a * b) ?_ ?_
  · exact (onehot_apply _ _ _ _ _).trans (congrArg₂ (fun a b : BitVec 32 => if a = b then (1 : EReal) else 0)
      ((row_apply _ _ _ r e).trans (congrFun (shapeCast_self v7 _) (ix1 e))) (tileWords_apply (i 0).val 0 _ (ix2 r e)))
  · exact (truncf_apply (φ := .f32) (ψ := .bf16) _ _ _).trans (congrFun (shapeCast_self v15 _) (ix2 e d))

/-- The closing step at `(r, d)`: the scaled accumulated row `r` against column `d` of the weights, plus the bias at `d`. -/
theorem k3_pay3_apply (v27 : Vec Ideal S512 .f32) (v30 : Vec Ideal S512x128 .f32) (v34 : Vec Ideal S128x128 .f32) (v37 : Vec Ideal S128 .f32)
    (r : Fin 512) (d : Fin 128) :
    k3_pay3 v27 v30 v34 v37 (ix2 r d) = (∑ k : Fin 128, (v30 (ix2 r k) * v27 (ix1 r)) * v34 (ix2 k d)) + v37 (ix1 d) := by
  unfold k3_pay3
  refine (addf_apply (φ := .f32) _ _ _).trans ?_
  refine congrArg₂ (fun a b : EReal => a + b) ((matmul_plain_apply (M := 512) (K := 128) (N := 128) _ _ r d).trans ?_) (row_apply v37 _ _ r d)
  refine Finset.sum_congr rfl fun k _ => ?_
  refine congrArg₂ (fun a b : EReal => a * b) ?_ (truncf_apply (φ := .f32) (ψ := .bf16) v34 _ (ix2 k d))
  refine (truncf_apply (φ := .f32) (ψ := .bf16) _ _ _).trans ((mulf_apply (φ := .f32) _ _ _).trans ?_)
  exact congrArg (fun z : EReal => v30 (ix2 r k) * z) (column_apply v27 _ _ _ r k)

/-- The first layer's closing step is the second's, cut off below at zero. -/
theorem k1_pay3_apply (v27 : Vec Ideal S512 .f32) (v30 : Vec Ideal S512x128 .f32) (v34 : Vec Ideal S128x128 .f32) (v37 : Vec Ideal S128 .f32)
    (r : Fin 512) (d : Fin 128) :
    k1_pay3 v27 v30 v34 v37 (ix2 r d) = max ((∑ k : Fin 128, (v30 (ix2 r k) * v27 (ix1 r)) * v34 (ix2 k d)) + v37 (ix1 d)) 0 :=
  (maximumf_apply (φ := .f32) _ _ _).trans (congrArg₂ (fun a b : EReal => max a b) (k3_pay3_apply v27 v30 v34 v37 r d) scalar_zero)

theorem k3_pay1_apply (y : S512x128.Idx) : k3_pay1 (F := Ideal) y = 0 :=
  k1_pay1_apply y

theorem k3_pay2_apply (i : grid3.Coords) (v7 : Vec Ideal S2048 .i32) (v15 : Vec Ideal S2048x128 .f32) (v18 : Vec Ideal S512x128 .f32)
    (r : Fin 512) (d : Fin 128) :
    k3_pay2 i v7 v15 v18 (ix2 r d)
      = v18 (ix2 r d) + ∑ e : Fin 2048, Gcn.hot (v7 (ix1 e)) ((i 0).val * 512 + r.val) * v15 (ix2 e d) :=
  k1_pay2_apply i v7 v15 v18 r d

end Cert.KernelIdeal.Pay

end
-- ==== Proof.KI.G0Value.lean ====
import proofs.«421167_j1614907703321_1_alg».proof.Proof.Gen.KernelIdeal.Launch
import proofs.«421167_j1614907703321_1_alg».proof.Proof.KI.Pay
import proofs.«421167_j1614907703321_1_alg».proof.Proof.Sched
import Idealize.ShloMosaic.Lib.Pipeline.Value

noncomputable section

open Idealize.ShloMosaic Idealize.ShloMosaic.TcCoe Idealize.SL.Sem Idealize.ShloMosaic.ValueIdx
open scoped BigOperators

namespace Cert.KernelIdeal.G0Value

open Cert.KernelIdeal Cert.KernelIdeal.Gen

/-- An accumulator that restarts at the multiples of `J` and otherwise adds `add n` holds the sum of `add` over its row so far. -/
theorem rowSum {N J : ℕ} {ι : Type} (hJ : 0 < J) (acc : (n : ℕ) → n < N → ι → EReal) (add : ℕ → ι → EReal)
    (h0 : ∀ n h, n % J = 0 → acc n h = add n)
    (hs : ∀ n (h : n + 1 < N), ¬ (n + 1) % J = 0 → acc (n + 1) h = fun i => acc n (Nat.lt_of_succ_lt h) i + add (n + 1) i)
    (t : ℕ) (ht : t < N) (i : ι) :
    acc t ht i = ∑ s ∈ Finset.range (t % J + 1), add (J * (t / J) + s) i := by
  have h' : J * (t / J) + t % J < N := lt_of_eq_of_lt (Nat.div_add_mod t J) ht
  rw [Pipeline.eq_accAt_of_mod acc J (fun n _ => add n) (fun n _ p i => p i + add n i) h0 hs hJ t ht h']
  generalize t % J = j at h'
  induction j with
  | zero => rw [Pipeline.accAt_zero, Finset.sum_range_one]; rfl
  | succ j ih => rw [Pipeline.accAt_succ, Finset.sum_range_succ, ih]

theorem row_word (t : Fin cfg0.N) : (BitVec.ofNat 32 (grid0.coords t 0).val).toNat = t.val / 98 :=
  Gcn.Sched.toNat_row (A := 293) (B := 98) t (by decide)

theorem col_word (t : Fin cfg0.N) : (BitVec.ofNat 32 (grid0.coords t 1).val).toNat = t.val % 98 := by
  rw [BitVec.toNat_ofNat, Nat.mod_eq_of_lt (lt_trans (grid0.coords t 1).isLt (by decide))]
  exact Gcn.Sched.col (A := 293) (B := 98) t

/-- Where the elements of point `t`'s four blocks sit in their arrays: the edge blocks follow the row `t / 98`, the node blocks the column `t % 98`. -/
theorem emb0 (t : Fin cfg0.N) (r : Fin 2048) (e : Fin 600064) (he : e.val = t.val / 98 * 2048 + r.val) :
    ((cfg0.win 0).blk t).view.emb (ix1 r) = ix1 e := by
  funext a; apply Fin.ext
  match a with
  | ⟨0, _⟩ => show (BitVec.ofNat 32 (grid0.coords t 0).val).toNat * 2048 + 1 * r.val = e.val; rw [row_word, he, Nat.one_mul]

theorem emb1 (t : Fin cfg0.N) (k : Fin 512) (d : Fin 128) (v : Fin 50176) (hv : v.val = t.val % 98 * 512 + k.val) :
    ((cfg0.win 1).blk t).view.emb (ix2 k d) = ix2 v d := by
  funext a; apply Fin.ext
  match a with
  | ⟨0, _⟩ => show (BitVec.ofNat 32 (grid0.coords t 1).val).toNat * 512 + 1 * k.val = v.val; rw [col_word, hv, Nat.one_mul]
  | ⟨1, _⟩ => show 0 * 128 + 1 * d.val = d.val; omega

theorem emb2 (t : Fin cfg0.N) (k : Fin 512) (v : Fin 50176) (hv : v.val = t.val % 98 * 512 + k.val) :
    ((cfg0.win 2).blk t).view.emb (ix1 k) = ix1 v := by
  funext a; apply Fin.ext
  match a with
  | ⟨0, _⟩ => show (BitVec.ofNat 32 (grid0.coords t 1).val).toNat * 512 + 1 * k.val = v.val; rw [col_word, hv, Nat.one_mul]

theorem emb3 (t : Fin cfg0.N) (r : Fin 2048) (d : Fin 128) (e : Fin 600064) (he : e.val = t.val / 98 * 2048 + r.val) :
    ((cfg0.win 3).blk t).view.emb (ix2 r d) = ix2 e d := by
  funext a; apply Fin.ext
  match a with
  | ⟨0, _⟩ => show (BitVec.ofNat 32 (grid0.coords t 0).val).toNat * 2048 + 1 * r.val = e.val; rw [row_word, he, Nat.one_mul]
  | ⟨1, _⟩ => show 0 * 128 + 1 * d.val = d.val; omega

variable (srcB : IVec S600064 32) (rowsB : FVec Ideal S50176x128 .f32) (nrmB : FVec Ideal S50176 .f32)

/-- What point `t` leaves in the accumulator, given what it found there. -/
def step (t : Fin cfg0.N) (p : Vec Ideal S2048x128 .f32) : Vec Ideal S2048x128 .f32 :=
  k0_pay2 (grid0.coords t) (((cfg0.win 0).blk t).view.read (Elt Ideal) srcB) (((cfg0.win 2).blk t).view.read (Elt Ideal) nrmB)
    (((cfg0.win 1).blk t).view.read (Elt Ideal) rowsB) p

/-- Node tile `j`'s share of the gathered row of edge `e`. -/
def tile (e : Fin 600064) (d : Fin 128) (j : Fin 98) : EReal :=
  ∑ k : Fin 512, Gcn.hot (srcB (ix1 e)) (Gcn.nodeOf j k).val * (rowsB (ix2 (Gcn.nodeOf j k) d) * nrmB (ix1 (Gcn.nodeOf j k)))

/-- What point `n` adds at `y`: the share of node tile `n % 98` for edge `(n / 98)·2048 + y 0`. -/
def add (n : ℕ) (y : S2048x128.Idx) : EReal :=
  if h : n < 28714 then
    tile srcB rowsB nrmB ⟨n / 98 * 2048 + (y 0).val, by have : (y 0).val < 2048 := idx2_lt0 y; omega⟩ (y 1) ⟨n % 98, Nat.mod_lt _ (by decide)⟩
  else 0

theorem step_apply (t : Fin cfg0.N) (p : Vec Ideal S2048x128 .f32) (y : S2048x128.Idx) :
    step srcB rowsB nrmB t p y = p y + add srcB rowsB nrmB t.val y := by
  obtain ⟨r, d, rfl⟩ : ∃ r d, y = ix2 r d := ⟨y 0, y 1, eq_ix2 y⟩
  have hN : t.val < 28714 := lt_of_lt_of_eq t.isLt N_0
  have hr := r.isLt
  unfold add
  rw [dif_pos hN]
  refine (Pay.k0_pay2_apply _ _ _ _ p r d).trans (congrArg (p (ix2 r d) + ·) (Finset.sum_congr rfl fun k _ => ?_))
  rw [View.read_apply, View.read_apply, View.read_apply, emb0 t r ⟨t.val / 98 * 2048 + r.val, by omega⟩ rfl,
    emb1 t k d (Gcn.nodeOf ⟨t.val % 98, Nat.mod_lt _ (by decide)⟩ k) rfl, emb2 t k (Gcn.nodeOf ⟨t.val % 98, Nat.mod_lt _ (by decide)⟩ k) rfl,
    Gcn.Sched.col (A := 293) (B := 98) t]
  rfl

variable (acc out : (n : ℕ) → n < cfg0.N → Vec Ideal S2048x128 .f32)
  (hfirst : ∀ t : Fin cfg0.N, t.val % 98 = 0 → acc t.val t.isLt = step srcB rowsB nrmB t (k0_pay1 (F := Ideal)))
  (hnext : ∀ t : Fin cfg0.N, ¬ t.val % 98 = 0 →
    acc t.val t.isLt = step srcB rowsB nrmB t (acc (t.val - 1) (Nat.lt_of_le_of_lt (Nat.sub_le _ _) t.isLt)))
  (hlast : ∀ t : Fin cfg0.N, t.val % 98 = 97 → out t.val t.isLt = acc t.val t.isLt)

/-- The whole result: row `e` is the gather of edge `e` over all node tiles. -/
def gathered : S600064x128.Idx → EReal :=
  fun i => Gcn.gatherRows (fun e => srcB (ix1 e)) (fun n d => rowsB (ix2 n d)) (fun n => nrmB (ix1 n)) (i 0) (i 1)

include hfirst hnext hlast in
/-- A row's last point holds the sum over all 98 node tiles, which is its block of the whole result. -/
theorem block_eq (t : Fin cfg0.N) (ht : t.val % 98 = 97) :
    out t.val t.isLt = ((cfg0.win 3).blk t).view.read (Elt Ideal) (gathered srcB rowsB nrmB) := by
  have hN : t.val < 28714 := lt_of_lt_of_eq t.isLt N_0
  funext y
  obtain ⟨r, d, rfl⟩ : ∃ r d, y = ix2 r d := ⟨y 0, y 1, eq_ix2 y⟩
  have hr := r.isLt
  have key := rowSum (N := cfg0.N) (ι := S2048x128.Idx) (by decide : 0 < 98) acc (add srcB rowsB nrmB)
    (fun n h hn => funext fun y => (congrFun (hfirst ⟨n, h⟩ hn) y).trans
      ((step_apply srcB rowsB nrmB ⟨n, h⟩ _ y).trans (by rw [Pay.k0_pay1_apply, zero_add])))
    (fun n h hn => funext fun y => (congrFun (hnext ⟨n + 1, h⟩ hn) y).trans (step_apply srcB rowsB nrmB ⟨n + 1, h⟩ _ y))
    t.val t.isLt (ix2 r d)
  rw [hlast t ht, View.read_apply, emb3 t r d ⟨t.val / 98 * 2048 + r.val, by omega⟩ rfl, key, ht, Finset.sum_range]
  show _ = ∑ j : Fin 98, tile srcB rowsB nrmB ⟨t.val / 98 * 2048 + r.val, by omega⟩ d j
  refine Finset.sum_congr rfl fun j _ => ?_
  have hj := j.isLt
  unfold add
  rw [dif_pos (by omega)]
  exact congrArg₂ (fun e j => tile srcB rowsB nrmB e d j) (Fin.ext (by show (98 * (t.val / 98) + j.val) / 98 * 2048 + r.val = t.val / 98 * 2048 + r.val; omega))
    (Fin.ext (by show (98 * (t.val / 98) + j.val) % 98 = j.val; omega))

/-- Every row of the result lies in the block of its row of the grid's last point. -/
theorem cover (hflush : ∀ t : Fin cfg0.N, (cfg0.win 3).flush t = true ↔ t.val % 98 = 97) (i : S600064x128.Idx) :
    ∃ t : Fin cfg0.N, (cfg0.win 3).flush t = true ∧ i ∈ ((cfg0.win 3).blk t).view.set := by
  have h0 : (i 0).val < 600064 := idx2_lt0 i
  have hlt : (i 0).val / 2048 * 98 + 97 < cfg0.N := lt_of_lt_of_eq (by omega) N_0.symm
  refine ⟨⟨_, hlt⟩, (hflush _).mpr (by show ((i 0).val / 2048 * 98 + 97) % 98 = 97; omega), ?_⟩
  have e3 := (emb3 ⟨_, hlt⟩ ⟨(i 0).val % 2048, Nat.mod_lt _ (by decide)⟩ (i 1) (i 0)
    (by show _ = ((i 0).val / 2048 * 98 + 97) / 98 * 2048 + (i 0).val % 2048; omega)).trans (eq_ix2 i).symm
  exact (congrArg (· ∈ ((cfg0.win 3).blk ⟨_, hlt⟩).view.set) e3).mp (View.emb_mem_set _ _)

end Cert.KernelIdeal.G0Value

end
-- ==== Proof.KI.ScatterValue.lean ====
import proofs.«421167_j1614907703321_1_alg».proof.Proof.Spec
import proofs.«421167_j1614907703321_1_alg».proof.Proof.Sched
import Idealize.ShloMosaic.Lib.ValueIdx

noncomputable section

namespace Gcn.Scatter

open Idealize.ShloMosaic Idealize.ShloMosaic.TcCoe Idealize.ShloMosaic.ValueIdx Gcn.Sched
open scoped BigOperators

/-- The column number fits a 32-bit word. -/
theorem toNat_col {A B : ℕ} (t : Fin (grid A B).N) (hB : B ≤ 2 ^ 32) :
    (BitVec.ofNat 32 ((grid A B).coords t 1).val).toNat = t.val % B := by
  rw [BitVec.toNat_ofNat, Nat.mod_eq_of_lt (lt_of_lt_of_le ((grid A B).coords t 1).isLt hB), col]

/-- An index is determined by its coordinates' values. -/
theorem ix1_of_val {n : ℕ} {i : (⟨1, ![n]⟩ : Shape).Idx} {x : Fin n} (h : (i 0).val = x.val) : i = ix1 x :=
  (eq_ix1 i).trans (congrArg ix1 (Fin.ext h))

theorem ix2_of_val {n0 n1 : ℕ} {i : (⟨2, ![n0, n1]⟩ : Shape).Idx} {x : Fin n0} {y : Fin n1}
    (h0 : (i 0).val = x.val) (h1 : (i 1).val = y.val) : i = ix2 x y :=
  (eq_ix2 i).trans (congrArg₂ ix2 (Fin.ext h0) (Fin.ext h1))

/-- Entry `x` of an array, zero past its end. -/
def pad {α : Type} [Zero α] {n : ℕ} (f : Fin n → α) (x : ℕ) : α := if h : x < n then f ⟨x, h⟩ else 0

theorem pad_of_lt {α : Type} [Zero α] {n : ℕ} (f : Fin n → α) {x : ℕ} (h : x < n) : pad f x = f ⟨x, h⟩ := dif_pos h

/-- A sequence that restarts in column zero and elsewhere adds `f row column` to its predecessor sums `f` along its row. -/
theorem row_sum {M : Type} [AddCommMonoid M] {N B : ℕ} (hB : 0 < B) (a : (n : ℕ) → n < N → M) (f : ℕ → ℕ → M)
    (h0 : ∀ n h, n % B = 0 → a n h = f (n / B) (n % B))
    (h1 : ∀ n h h', ¬ n % B = 0 → a n h = a (n - 1) h' + f (n / B) (n % B)) :
    ∀ (j n : ℕ) (h : n < N), n % B = j → a n h = ∑ k ∈ Finset.range (j + 1), f (n / B) k
  | 0, n, h, hj => by rw [h0 n h hj, hj, Finset.sum_range_one]
  | j + 1, n, h, hj => by
    have hlt : j < B := Nat.lt_of_succ_lt (lt_of_eq_of_lt hj.symm (Nat.mod_lt n hB))
    have e : n - 1 = B * (n / B) + j := by have := Nat.div_add_mod n B; omega
    have hd : (n - 1) / B = n / B := by rw [e, Nat.mul_add_div hB, Nat.div_eq_of_lt hlt, Nat.add_zero]
    have hm : (n - 1) % B = j := by rw [e, Nat.mul_add_mod, Nat.mod_eq_of_lt hlt]
    rw [h1 n h (by omega) (by omega), row_sum hB a f h0 h1 j (n - 1) _ hm, hd, hj, Finset.sum_range_succ _ (j + 1)]

variable (dst : Fin EP → BitVec 32) (msg : Fin EP → Fin 128 → EReal) (nrm : Fin NP → EReal)
  (W : Fin 128 → Fin 128 → EReal) (b : Fin 128 → EReal) (fin : EReal → EReal)

/-- What edge tile `k` adds to the accumulated message of node `n` at lane `d`. -/
def tile (n k : ℕ) (d : Fin 128) : EReal :=
  ∑ e : Fin 2048, hot (pad dst (k * 2048 + e.val)) n * pad msg (k * 2048 + e.val) d

/-- The 293 edge tiles together give the node's accumulated message. -/
theorem sum_tile (n : Fin NP) (d : Fin 128) : ∑ k ∈ Finset.range 293, tile dst msg n.val k d = scatterAcc dst msg n d := by
  unfold scatterAcc tile
  rw [Finset.sum_range]
  refine Finset.sum_congr rfl fun k _ => Finset.sum_congr rfl fun e _ => ?_
  rw [pad_of_lt dst (edge_lt k e), pad_of_lt msg (edge_lt k e)]
  rfl

abbrev Acc := Vec Ideal ⟨2, ![512, 128]⟩ .f32

/-- A row's last point stores the dense map of the messages its 293 edge tiles accumulated from zero. -/
theorem out_last {N : ℕ} (acc out : (n : ℕ) → n < N → Acc) (step post : Fin N → Acc → Acc) (z : Acc)
    (hz : ∀ y, z y = 0)
    (hstep : ∀ t v r d, step t v (ix2 r d) = v (ix2 r d) + tile dst msg (t.val / 293 * 512 + r.val) (t.val % 293) d)
    (hpost : ∀ t v r d, post t v (ix2 r d)
      = fin ((∑ k : Fin 128, (v (ix2 r k) * pad nrm (t.val / 293 * 512 + r.val)) * W k d) + b d))
    (hfirst : ∀ t : Fin N, t.val % 293 = 0 → acc t.val t.isLt = step t z)
    (hnext : ∀ t : Fin N, ¬ t.val % 293 = 0 →
      acc t.val t.isLt = step t (acc (t.val - 1) (Nat.lt_of_le_of_lt (Nat.sub_le _ _) t.isLt)))
    (hlast : ∀ t : Fin N, t.val % 293 = 292 → out t.val t.isLt = post t (acc t.val t.isLt))
    (t : Fin N) (ht : t.val % 293 = 292) (r : Fin 512) (d : Fin 128) (hn : t.val / 293 * 512 + r.val < NP) :
    out t.val t.isLt (ix2 r d) = fin (dense (scatterAcc dst msg) nrm W b ⟨t.val / 293 * 512 + r.val, hn⟩ d) := by
  rw [hlast t ht, hpost]
  unfold dense
  refine congrArg (fun s => fin (s + b d)) (Finset.sum_congr rfl fun k _ => ?_)
  rw [pad_of_lt nrm hn, ← sum_tile]
  refine congrArg (· * nrm _ * W k d) ?_
  exact row_sum (B := 293) (by decide) (fun n h => acc n h (ix2 r k)) (fun q j => tile dst msg (q * 512 + r.val) j k)
    (fun n h hn => by rw [hfirst ⟨n, h⟩ hn, hstep, hz, zero_add])
    (fun n h h' hn => by rw [hnext ⟨n, h⟩ hn, hstep]) 292 t.val t.isLt ht

end Gcn.Scatter

end
-- ==== Proof.KI.S1Value.lean ====
import proofs.«421167_j1614907703321_1_alg».proof.Proof.Gen.KernelIdeal.Launch
import proofs.«421167_j1614907703321_1_alg».proof.Proof.KI.Pay
import proofs.«421167_j1614907703321_1_alg».proof.Proof.KI.ScatterValue
import Idealize.ShloMosaic.Lib.Pipeline.Value

noncomputable section

namespace Cert.KernelIdeal.S1Value

open Idealize.ShloMosaic Idealize.ShloMosaic.TcCoe Idealize.ShloMosaic.ValueIdx Idealize.SL.Sem
open Cert.KernelIdeal Cert.KernelIdeal.Gen Gcn.Scatter
open scoped BigOperators

theorem idx0 (t : Fin cfg1.N) : win1_0.index t 0 = t.val % 293 := toNat_col (A := 98) t (by decide)
theorem idx1 (t : Fin cfg1.N) : win1_1.index t 0 = t.val % 293 := toNat_col (A := 98) t (by decide)
theorem idx2 (t : Fin cfg1.N) : win1_2.index t 0 = t.val / 293 := Gcn.Sched.toNat_row (A := 98) t (by decide)
theorem idx5 (t : Fin cfg1.N) : win1_5.index t 0 = t.val / 293 := Gcn.Sched.toNat_row (A := 98) t (by decide)

variable (dstB : IVec S600064 32) (msgB : FVec Ideal S600064x128 .f32) (nrmB : FVec Ideal S50176 .f32)
  (wB : FVec Ideal S128x128 .f32) (bB : FVec Ideal S128 .f32)

abbrev dst : Fin Gcn.EP → BitVec 32 := fun e => dstB (ix1 e)
abbrev msg : Fin Gcn.EP → Fin 128 → EReal := fun e d => msgB (ix2 e d)
abbrev nrm : Fin Gcn.NP → EReal := fun n => nrmB (ix1 n)
abbrev wgt : Fin 128 → Fin 128 → EReal := fun k d => wB (ix2 k d)
abbrev bias : Fin 128 → EReal := fun d => bB (ix1 d)

/-- Window `w`'s block of an array at point `t`. -/
abbrev blk (w : Fin cfg1.W) (t : Fin cfg1.N) := ((cfg1.win w).blk t).view.read (Elt Ideal)

theorem iblk0_apply (t : Fin cfg1.N) (e : Fin 2048) : blk 0 t dstB (ix1 e) = pad (dst dstB) (t.val % 293 * 2048 + e.val) := by
  have hb : t.val % 293 * 2048 + e.val < 600064 := by have := e.isLt; omega
  rw [pad_of_lt (dst dstB) hb]
  exact congrArg dstB (ix1_of_val (by show win1_0.index t 0 * 2048 + 1 * e.val = _; rw [idx0, Nat.one_mul]))

theorem iblk1_apply (t : Fin cfg1.N) (e : Fin 2048) (d : Fin 128) :
    blk 1 t msgB (ix2 e d) = pad (msg msgB) (t.val % 293 * 2048 + e.val) d := by
  have hb : t.val % 293 * 2048 + e.val < 600064 := by have := e.isLt; omega
  rw [pad_of_lt (msg msgB) hb]
  exact congrArg msgB (ix2_of_val (by show win1_1.index t 0 * 2048 + 1 * e.val = _; rw [idx1, Nat.one_mul])
    (by show 0 * 128 + 1 * d.val = _; omega))

theorem iblk2_apply (t : Fin cfg1.N) (r : Fin 512) : blk 2 t nrmB (ix1 r) = pad (nrm nrmB) (t.val / 293 * 512 + r.val) := by
  have hb : t.val / 293 * 512 + r.val < 50176 := by have := r.isLt; have := lt_of_lt_of_eq t.isLt N_1; omega
  rw [pad_of_lt (nrm nrmB) hb]
  exact congrArg nrmB (ix1_of_val (by show win1_2.index t 0 * 512 + 1 * r.val = _; rw [idx2, Nat.one_mul]))

theorem iblk3_apply (t : Fin cfg1.N) (k d : Fin 128) : blk 3 t wB (ix2 k d) = wgt wB k d :=
  congrArg wB (ix2_of_val (by show 0 * 128 + 1 * k.val = _; omega) (by show 0 * 128 + 1 * d.val = _; omega))

theorem iblk4_apply (t : Fin cfg1.N) (d : Fin 128) : blk 4 t bB (ix1 d) = bias bB d :=
  congrArg bB (ix1_of_val (by show 0 * 128 + 1 * d.val = _; omega))

theorem emb5 (t : Fin cfg1.N) (r : Fin 512) (d : Fin 128) (hb : t.val / 293 * 512 + r.val < 50176) :
    ((cfg1.win 5).blk t).view.emb (ix2 r d) = ix2 ⟨t.val / 293 * 512 + r.val, hb⟩ d :=
  ix2_of_val (by show win1_5.index t 0 * 512 + 1 * r.val = _; rw [idx5, Nat.one_mul]) (by show 0 * 128 + 1 * d.val = _; omega)

/-- What point `t` leaves in the accumulator, given what it found there. -/
abbrev step (t : Fin cfg1.N) (v : Acc) : Acc := k1_pay2 (grid1.coords t) (blk 0 t dstB) (blk 1 t msgB) v

variable (fin : EReal → EReal) (p3 : Vec Ideal S512 .f32 → Acc → Vec Ideal S128x128 .f32 → Vec Ideal S128 .f32 → Acc)
  (acc out : (n : ℕ) → n < cfg1.N → Acc)
  (hfirst : ∀ t : Fin cfg1.N, t.val % 293 = 0 → acc t.val t.isLt = step dstB msgB t (k1_pay1 (F := Ideal)))
  (hnext : ∀ t : Fin cfg1.N, ¬ t.val % 293 = 0 →
    acc t.val t.isLt = step dstB msgB t (acc (t.val - 1) (Nat.lt_of_le_of_lt (Nat.sub_le _ _) t.isLt)))
  (hlast : ∀ t : Fin cfg1.N, t.val % 293 = 292 → out t.val t.isLt = p3 (blk 2 t nrmB) (acc t.val t.isLt) (blk 3 t wB) (blk 4 t bB))
  (pay3 : ∀ v27 v30 v34 v37 (r : Fin 512) (d : Fin 128),
    p3 v27 v30 v34 v37 (ix2 r d) = fin ((∑ k : Fin 128, (v30 (ix2 r k) * v27 (ix1 r)) * v34 (ix2 k d)) + v37 (ix1 d)))

/-- The array the output ends holding: the specification's value for each node, through the region's last map `fin`. -/
def result : S50176x128.Idx → EReal :=
  fun i => fin (Gcn.dense (Gcn.scatterAcc (dst dstB) (msg msgB)) (nrm nrmB) (wgt wB) (bias bB) (i 0) (i 1))

include hfirst hnext hlast pay3 in
/-- A row's last point holds its block of the result. -/
theorem block_eq (t : Fin cfg1.N) (ht : t.val % 293 = 292) :
    out t.val t.isLt = ((cfg1.win 5).blk t).view.read (Elt Ideal) (result dstB msgB nrmB wB bB fin) := by
  have hN := lt_of_lt_of_eq t.isLt N_1
  funext y
  obtain ⟨r, d, rfl⟩ : ∃ (r : Fin 512) (d : Fin 128), y = ix2 r d := ⟨y 0, y 1, eq_ix2 y⟩
  have hb : t.val / 293 * 512 + r.val < 50176 := by have := r.isLt; omega
  refine (out_last (dst dstB) (msg msgB) (nrm nrmB) (wgt wB) (bias bB) fin acc out (step dstB msgB)
    (fun t v => p3 (blk 2 t nrmB) v (blk 3 t wB) (blk 4 t bB)) (k1_pay1 (F := Ideal)) Pay.k1_pay1_apply
    (fun s v r d => ?_) (fun s v r d => ?_) hfirst hnext hlast t ht r d hb).trans
    (congrArg (result dstB msgB nrmB wB bB fin) (emb5 t r d hb)).symm
  · refine (Pay.k1_pay2_apply _ _ _ _ r d).trans (congrArg (v (ix2 r d) + ·) (Finset.sum_congr rfl fun e _ => ?_))
    rw [iblk0_apply, iblk1_apply, Gcn.Sched.row (A := 98) (B := 293) s]
  · refine (pay3 _ _ _ _ r d).trans ?_
    rw [iblk2_apply, iblk4_apply]
    exact congrArg (fun x => fin (x + bias bB d)) (Finset.sum_congr rfl fun k _ => by rw [iblk3_apply])

/-- Every array row lies in the output block of the last point of its grid row. -/
theorem cover (hflush : ∀ t : Fin cfg1.N, (cfg1.win 5).flush t = true ↔ t.val % 293 = 292) (i : S50176x128.Idx) :
    ∃ t : Fin cfg1.N, (cfg1.win 5).flush t = true ∧ i ∈ ((cfg1.win 5).blk t).view.set := by
  have hi := idx2_lt0 i
  obtain ⟨t, ht⟩ : ∃ t : Fin cfg1.N, t.val = (i 0).val / 512 * 293 + 292 := ⟨⟨_, lt_of_lt_of_eq (by omega) N_1.symm⟩, rfl⟩
  have hb : t.val / 293 * 512 + (i 0).val % 512 < 50176 := by omega
  exact ⟨t, (hflush t).mpr (by omega),
    (congrArg (· ∈ _) ((ix2_of_val (x := ⟨_, hb⟩) (by show (i 0).val = t.val / 293 * 512 + (i 0).val % 512; omega) rfl).trans
      (emb5 t ⟨(i 0).val % 512, by omega⟩ (i 1) hb).symm)).mpr (View.emb_mem_set _ _)⟩

end Cert.KernelIdeal.S1Value

end
-- ==== Proof.KI.Result.lean ====
import proofs.«421167_j1614907703321_1_alg».proof.Proof.KI.Frames
import proofs.«421167_j1614907703321_1_alg».proof.Proof.KI.Final
import proofs.«421167_j1614907703321_1_alg».proof.Proof.KI.G0Value
import proofs.«421167_j1614907703321_1_alg».proof.Proof.KI.S1Value
import proofs.«421167_j1614907703321_1_alg».proof.Proof.KI.Pay
import proofs.«421167_j1614907703321_1_alg».proof.Proof.KI.Sched
import proofs.«421167_j1614907703321_1_alg».proof.Proof.KI.Sched2

noncomputable section

namespace Cert.KernelIdeal.Result

open Cert.KernelIdeal Cert.KernelIdeal.Gen Idealize.ShloMosaic Idealize.ShloMosaic.TcCoe Idealize.ShloMosaic.ValueIdx Idealize.SL.Sem
open Cert.KernelIdeal.Frames

theorem out0 (V : Whole.EV (F := Ideal)) (c : Dev nD) (e : Fin 600064) (d : Fin 128) :
    ((gather1 (F := Ideal)).dat V c).arrAt 3 cfg0.N (ix2 e d)
      = Gcn.gatherRows (fun e => V c main_v9 (ix1 e)) (fun n d => V c main_v7 (ix2 n d)) (fun n => V c main_v8 (ix1 n)) e d :=
  congrFun ((G0.dat V c).arrAt_eq_of_cover 3 (G0Value.gathered (V c main_v9) (V c main_v7) (V c main_v8))
    (fun t hf => (G0.dat_after_out V c t).trans (G0Value.block_eq _ _ _ (G0.accAt V c) (G0.outAt V c) (G0.accAt_first V c)
      (G0.accAt_next V c) (G0.outAt_last V c) t ((Sched.flush0_out t).mp hf)))
    (G0Value.cover Sched.flush0_out)) (ix2 e d)

theorem out1 (V : Whole.EV (F := Ideal)) (c : Dev nD) (n : Fin 50176) (d : Fin 128) :
    ((scatter1 (F := Ideal)).dat V c).arrAt 5 cfg1.N (ix2 n d)
      = max (Gcn.dense (Gcn.scatterAcc (fun e => V c main_v10 (ix1 e)) (fun e d => V c main_v11 (ix2 e d)))
          (fun n => V c main_v8 (ix1 n)) (fun k d => V c main_arg3 (ix2 k d)) (fun d => V c main_arg4 (ix1 d)) n d) 0 :=
  congrFun ((S1.dat V c).arrAt_eq_of_cover 5
    (S1Value.result (V c main_v10) (V c main_v11) (V c main_v8) (V c main_arg3) (V c main_arg4) (max · 0))
    (fun t hf => (S1.dat_after_out V c t).trans (S1Value.block_eq _ _ _ _ _ _ (k1_pay3 (F := Ideal)) (S1.accAt V c) (S1.outAt V c)
      (S1.accAt_first V c) (S1.accAt_next V c) (S1.outAt_last V c) Pay.k1_pay3_apply t ((Sched.flush1_out t).mp hf)))
    (S1Value.cover Sched.flush1_out)) (ix2 n d)

/-- The second gather region runs the first one's body over the same grid, on other arrays. -/
theorem out2 (V : Whole.EV (F := Ideal)) (c : Dev nD) (e : Fin 600064) (d : Fin 128) :
    ((gather2 (F := Ideal)).dat V c).arrAt 3 cfg2.N (ix2 e d)
      = Gcn.gatherRows (fun e => V c main_v9 (ix1 e)) (fun n d => V c main_v12 (ix2 n d)) (fun n => V c main_v8 (ix1 n)) e d :=
  congrFun ((G2.dat V c).arrAt_eq_of_cover 3 (G0Value.gathered (V c main_v9) (V c main_v12) (V c main_v8))
    (fun t hf => (G2.dat_after_out V c t).trans (G0Value.block_eq _ _ _ (G2.accAt V c) (G2.outAt V c) (G2.accAt_first V c)
      (G2.accAt_next V c) (G2.outAt_last V c) t ((Sched.flush2_out t).mp hf)))
    (G0Value.cover Sched.flush2_out)) (ix2 e d)

/-- The second scatter region runs the first one's accumulation over the same grid, on other arrays and without the cut-off. -/
theorem out3 (V : Whole.EV (F := Ideal)) (c : Dev nD) (n : Fin 50176) (d : Fin 128) :
    ((scatter2 (F := Ideal)).dat V c).arrAt 5 cfg3.N (ix2 n d)
      = Gcn.dense (Gcn.scatterAcc (fun e => V c main_v10 (ix1 e)) (fun e d => V c main_v13 (ix2 e d)))
          (fun n => V c main_v8 (ix1 n)) (fun k d => V c main_arg5 (ix2 k d)) (fun d => V c main_arg6 (ix1 d)) n d :=
  congrFun ((S3.dat V c).arrAt_eq_of_cover 5
    (S1Value.result (V c main_v10) (V c main_v13) (V c main_v8) (V c main_arg5) (V c main_arg6) id)
    (fun t hf => (S3.dat_after_out V c t).trans (S1Value.block_eq _ _ _ _ _ _ (k3_pay3 (F := Ideal)) (S3.accAt V c) (S3.outAt V c)
      (S3.accAt_first V c) (S3.accAt_next V c) (S3.outAt_last V c) Pay.k3_pay3_apply t ((Sched.flush3_out t).mp hf)))
    (S1Value.cover Sched.flush3_out)) (ix2 n d)

variable (m : (ℓ : Loc nD τ sig) → Buf (Elt Ideal) ℓ)

theorem value (c : Dev nD) (n : Fin Gcn.N) (d : Fin 128) :
    (atEnd m c (Proc.devRef .tc main_v15) : FVec Ideal S50000x128 .f32) (ix2 n d)
      = Gcn.tiledOut (Final.featF m c) (Final.srcF m c) (Final.dstF m c) (Final.nrmF m c) (Final.w0F m c) (Final.b0F m c)
          (Final.w1F m c) (Final.b1F m c) n d :=
  Final.value gather1 scatter1 gather2 scatter2 m out0 out1 out2 out3 c n d

end Cert.KernelIdeal.Result

end
-- ==== Proof.LibScatterRows.lean ====
import Idealize.ShloMosaic.PureOps
import Idealize.ShloMosaic.Lib.ValueIdx

noncomputable section

namespace ScatterRows

open Idealize.ShloMosaic Idealize.ShloMosaic.ValueIdx

abbrev rowDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

variable {N C P w : Nat} (wf : ScatterDims.WF ⟨2, ![N, C]⟩ ⟨2, ![P, 1]⟩ ⟨2, ![P, C]⟩ [1] [0] [0] 1)

theorem start_zero (j : (⟨2, ![P, C]⟩ : Shape).Idx) (idx : IVec ⟨2, ![P, 1]⟩ w) :
    (rowDims N C P wf).start j idx 0 = (idx (ix2 (j 0) (0 : Fin 1))).toInt := by
  unfold ScatterDims.start
  rw [dif_pos (show (0 : Fin 2) ∈ (rowDims N C P wf).scatterDimsToOperandDims from List.mem_singleton.mpr rfl)]
  have hsi : (rowDims N C P wf).siIdx j ⟨List.idxOf (0 : Fin 2) (rowDims N C P wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem start_one (j : (⟨2, ![P, C]⟩ : Shape).Idx) (idx : IVec ⟨2, ![P, 1]⟩ w) :
    (rowDims N C P wf).start j idx 1 = 0 := by
  unfold ScatterDims.start
  rw [dif_neg (show ¬ (1 : Fin 2) ∈ (rowDims N C P wf).scatterDimsToOperandDims from
    (show ¬ (1 : Fin 2) ∈ ([0] : List (Fin 2)) by decide))]

theorem window_zero (j : (⟨2, ![P, C]⟩ : Shape).Idx) : (rowDims N C P wf).window j 0 = 0 := by
  unfold ScatterDims.window
  rw [dif_neg (show ¬ (0 : Fin 2) ∈ (rowDims N C P wf).sKept from
    (show ¬ (0 : Fin 2) ∈ ([1] : List (Fin 2)) by decide))]

theorem window_one (j : (⟨2, ![P, C]⟩ : Shape).Idx) : (rowDims N C P wf).window j 1 = (j 1).val := by
  unfold ScatterDims.window
  rw [dif_pos (show (1 : Fin 2) ∈ (rowDims N C P wf).sKept from
    (show (1 : Fin 2) ∈ ([1] : List (Fin 2)) by decide))]
  rfl

theorem resultIdx?_eq_some_iff (idx : IVec ⟨2, ![P, 1]⟩ w) (j : (⟨2, ![P, C]⟩ : Shape).Idx)
    (i : (⟨2, ![N, C]⟩ : Shape).Idx) :
    (rowDims N C P wf).resultIdx? j idx = some i
      ↔ (idx (ix2 (j 0) (0 : Fin 1))).toInt = ((i 0).val : Int) ∧ (j 1).val = (i 1).val := by
  have h0 := start_zero wf j idx
  have h1 := start_one wf j idx
  have w0 := window_zero wf j
  have w1 := window_one wf j
  have hi0 : (i 0).val < N := (i 0).isLt
  have hi1 : (i 1).val < C := (i 1).isLt
  have hj1 : (j 1).val < C := (j 1).isLt
  unfold ScatterDims.resultIdx?
  constructor
  · intro h
    split at h
    · rename_i hall
      have hf := Option.some.inj h
      have e0 := congrArg (fun f : (⟨2, ![N, C]⟩ : Shape).Idx => (f 0).val) hf
      have e1 := congrArg (fun f : (⟨2, ![N, C]⟩ : Shape).Idx => (f 1).val) hf
      have a0 := (hall 0).1
      dsimp only at e0 e1
      rw [h0, w0] at e0 a0
      rw [h1, w1] at e1
      constructor <;> omega
    · exact absurd h (by simp)
  · rintro ⟨ha, hb⟩
    have hall : ∀ a : Fin 2, 0 ≤ (rowDims N C P wf).start j idx a + ((rowDims N C P wf).window j a : Int) ∧
        (rowDims N C P wf).start j idx a + ((rowDims N C P wf).window j a : Int)
          < (((⟨2, ![N, C]⟩ : Shape).size a : Nat) : Int) := by
      refine Fin.forall_fin_two.2 ⟨?_, ?_⟩
      · rw [h0, w0, ha]
        show (0 : Int) ≤ ((i 0).val : Int) + ((0 : Nat) : Int) ∧ ((i 0).val : Int) + ((0 : Nat) : Int) < (N : Int)
        omega
      · rw [h1, w1]
        show (0 : Int) ≤ 0 + ((j 1).val : Int) ∧ 0 + ((j 1).val : Int) < (C : Int)
        omega
    rw [dif_pos hall]
    refine congrArg some (funext (Fin.forall_fin_two.2 ⟨Fin.ext ?_, Fin.ext ?_⟩))
    · show ((rowDims N C P wf).start j idx 0 + ((rowDims N C P wf).window j 0 : Int)).toNat = (i 0).val
      rw [h0, w0, ha]; omega
    · show ((rowDims N C P wf).start j idx 1 + ((rowDims N C P wf).window j 1 : Int)).toNat = (i 1).val
      rw [h1, w1]; omega

open scoped BigOperators

/-- A row scatter-add adds to row `n` the update rows whose index word is `n`. -/
theorem hostScatterAdd_rows_apply (x : (⟨2, ![N, C]⟩ : Shape).Idx → EReal) (idx : IVec ⟨2, ![P, 1]⟩ w)
    (upd : (⟨2, ![P, C]⟩ : Shape).Idx → EReal) (i : (⟨2, ![N, C]⟩ : Shape).Idx) :
    Ideal.hostScatterAdd (rowDims N C P wf) x idx upd i
      = x i + ∑ p ∈ Finset.univ.filter (fun p : Fin P => (idx (ix2 p (0 : Fin 1))).toInt = ((i 0).val : Int)),
          upd (ix2 p (i 1)) := by
  unfold Ideal.hostScatterAdd
  congr 1
  refine Finset.sum_nbij' (fun j => (j 0 : Fin P)) (fun p => ix2 p (i 1)) ?_ ?_ ?_ ?_ ?_
  · intro j hj
    exact Finset.mem_filter.2 ⟨Finset.mem_univ _,
      ((resultIdx?_eq_some_iff wf idx j i).1 (Finset.mem_filter.1 hj).2).1⟩
  · intro p hp
    exact Finset.mem_filter.2 ⟨Finset.mem_univ _,
      (resultIdx?_eq_some_iff wf idx (ix2 p (i 1)) i).2 ⟨(Finset.mem_filter.1 hp).2, rfl⟩⟩
  · intro j hj
    have h1 : j 1 = i 1 := Fin.ext ((resultIdx?_eq_some_iff wf idx j i).1 (Finset.mem_filter.1 hj).2).2
    rw [← h1]
    exact (eq_ix2 j).symm
  · intro p _
    rfl
  · intro j hj
    have h1 : j 1 = i 1 := Fin.ext ((resultIdx?_eq_some_iff wf idx j i).1 (Finset.mem_filter.1 hj).2).2
    rw [← h1]
    exact congrArg upd (eq_ix2 j)

theorem scatterAdd_rows_apply {φ : FTy} (x : FVec Ideal ⟨2, ![N, C]⟩ φ) (idx : IVec ⟨2, ![P, 1]⟩ w)
    (upd : FVec Ideal ⟨2, ![P, C]⟩ φ) (i : (⟨2, ![N, C]⟩ : Shape).Idx) :
    Host.scatterAdd (rowDims N C P wf) x idx upd i
      = x i + ∑ p ∈ Finset.univ.filter (fun p : Fin P => (idx (ix2 p (0 : Fin 1))).toInt = ((i 0).val : Int)),
          upd (ix2 p (i 1)) :=
  hostScatterAdd_rows_apply wf x idx upd i

end ScatterRows

end
-- ==== Proof.RefRead.lean ====
import proofs.«421167_j1614907703321_1_alg».proof.Defs
import proofs.«421167_j1614907703321_1_alg».proof.Proof.Gen.ReferenceIdeal.Read
import proofs.«421167_j1614907703321_1_alg».proof.Proof.Spec
import proofs.«421167_j1614907703321_1_alg».proof.Proof.LibScatterRows
import Idealize.ShloMosaic.Lib.ValueIdx
import Idealize.ShloMosaic.PureOps.Ideal.Laws

noncomputable section

namespace Cert.ReferenceIdeal.RefRead

open Cert.ReferenceIdeal Cert.ReferenceIdeal.Read Idealize.ShloMosaic Idealize.ShloMosaic.ValueIdx
open scoped BigOperators

section GatherRows
variable {α : Type}

abbrev gatherRowDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- A row gather reads the row its index word names, clamped into range. -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (j : (⟨2, ![P, C]⟩ : Shape).Idx) :
    Host.gather (gatherRowDims N C P wf) x idx j
      = x (ix2 ⟨min (idx (ix2 (j 0) (0 : Fin 1))).toInt.toNat (N - 1), by omega⟩ (j 1)) := by
  unfold Host.gather
  congr 1
  funext a
  refine Fin.ext ?_
  match a with
  | ⟨0, _⟩ =>
    show (gatherRowDims N C P wf).start j idx 0 + (gatherRowDims N C P wf).batchCoord j 0
        + (gatherRowDims N C P wf).offCoord j 0 = min (idx (ix2 (j 0) (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowDims N C P wf).startIndexMap from List.mem_singleton.mpr rfl)]
    have hsi : (gatherRowDims N C P wf).siIdx j ⟨List.idxOf (0 : Fin 2) (gatherRowDims N C P wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    show (gatherRowDims N C P wf).start j idx 1 + (gatherRowDims N C P wf).batchCoord j 1
        + (gatherRowDims N C P wf).offCoord j 1 = (j 1).val
    have hs : (gatherRowDims N C P wf).start j idx 1 = 0 := by
      unfold GatherDims.start
      rw [dif_neg (show ¬ (1 : Fin 2) ∈ (gatherRowDims N C P wf).startIndexMap from
        (show ¬ (1 : Fin 2) ∈ ([0] : List (Fin 2)) by decide))]
    have ho : (gatherRowDims N C P wf).offCoord j 1 = (j 1).val := by
      unfold GatherDims.offCoord
      rw [dif_pos ((GatherDims.mem_sKept _ _).2
        ⟨(show ¬ (1 : Fin 2) ∈ ([0] : List (Fin 2)) by decide), List.not_mem_nil⟩)]
      rfl
    rw [GatherDims.batchCoord_eq_zero _ _ _ List.not_mem_nil, hs, ho]
    omega

end GatherRows

theorem select_wrap_toInt (w : BitVec 32) :
    (Scalar.select (IntOp.cmpi .slt w 0#32) (IntOp.addi w 50000#32) w).toInt
      = if w.toInt < 0 then (w + 50000#32).toInt else w.toInt := by
  have hc : IntOp.cmpi .slt w 0#32 = BitVec.ofBool (decide (w.toInt < 0)) := by
    show BitVec.ofBool (w.slt 0#32) = _
    rw [BitVec.slt_eq_decide, BitVec.toInt_zero]
  rw [hc]
  by_cases h : w.toInt < 0
  · rw [decide_eq_true h, if_pos h]
    show (Scalar.select 1#1 (w + 50000#32) w).toInt = _
    rw [select_one]
  · rw [decide_eq_false h, if_neg h]
    show (Scalar.select 0#1 (w + 50000#32) w).toInt = _
    rw [select_zero]

theorem rowOf_val (w : BitVec 32) :
    (Gcn.rowOf w).val
      = min (Scalar.select (IntOp.cmpi .slt w 0#32) (IntOp.addi w 50000#32) w).toInt.toNat 49999 := by
  rw [select_wrap_toInt]
  rfl

theorem bias_idx_one (n : Fin 50000) (d : Fin 128) : idx_main_v24 (idx_main_v25 (ix2 n d)) = ix1 d := eq_ix1 _
theorem scale_idx_src (n : Fin 50000) (k : Fin 128) : idx_main_v7 (idx_main_v8 (ix2 n k)) = ix1 n := eq_ix1 _
theorem src_col_idx (e : Fin 600000) : idx_main_v15 (ix2 e (0 : Fin 1)) = ix1 e := eq_ix1 _
theorem dst_col_idx (e : Fin 600000) : idx_main_v18 (ix2 e (0 : Fin 1)) = ix1 e := eq_ix1 _
theorem lhs_idx_one (n : Fin 50000) (d k : Fin 128) : lidx_main_v23 (ix2 n d) k = ix2 n k := eq_ix2 _
theorem rhs_idx_one (n : Fin 50000) (d k : Fin 128) : ridx_main_v23 (ix2 n d) k = ix2 k d := eq_ix2 _

theorem scale_src (x2 : (⟨S600000, .i32⟩ : BufTy).Contents (Elt Ideal)) (n : Fin 50000) (k : Fin 128) :
    val_main_v8 (F := Ideal) x2 (ix2 n k) = val_main_v6 (F := Ideal) x2 (ix1 n) := by
  rw [val_main_v8_apply, val_main_v7_apply, scale_idx_src]

/-- The scale is spread over the columns the same way on both sides of the aggregation. -/
theorem scale_dst (x2 : (⟨S600000, .i32⟩ : BufTy).Contents (Elt Ideal)) (n : Fin 50000) (k : Fin 128) :
    val_main_v21 (F := Ideal) x2 (ix2 n k) = val_main_v6 (F := Ideal) x2 (ix1 n) :=
  scale_src x2 n k

theorem bias_one (b : (⟨S128, .f32⟩ : BufTy).Contents (Elt Ideal)) (n : Fin 50000) (d : Fin 128) : val_main_v25 (F := Ideal) b (ix2 n d) = b (ix1 d) := by
  rw [val_main_v25_apply, val_main_v24_apply, bias_idx_one]

theorem zero_table (i : S50000x128.Idx) : val_main_v17 (F := Ideal) i = (0 : EReal) := by
  rw [val_main_v17_apply, val_main_cst_3_apply, Ideal.ofBits_def, Ideal.ofBits_zero_f32]

theorem dst_col (x2 : (⟨S600000, .i32⟩ : BufTy).Contents (Elt Ideal)) (e : Fin 600000) : val_main_v18 (F := Ideal) x2 (ix2 e (0 : Fin 1)) = x2 (ix1 e) := by
  rw [val_main_v18_apply, dst_col_idx]

theorem src_col (x1 : (⟨S600000, .i32⟩ : BufTy).Contents (Elt Ideal)) (e : Fin 600000) :
    val_main_v15 (F := Ideal) x1 (ix2 e (0 : Fin 1))
      = Scalar.select (IntOp.cmpi .slt (x1 (ix1 e)) 0#32) (IntOp.addi (x1 (ix1 e)) 50000#32) (x1 (ix1 e)) := by
  rw [val_main_v15_apply, src_col_idx, val_main_v14_apply, val_main_v11_apply, val_main_v13_apply, val_main_v10_apply,
    val_main_v12_apply, val_main_c_apply, val_main_c_2_apply]

theorem gather_read (y : (⟨S50000x128, .f32⟩ : BufTy).Contents (Elt Ideal)) (c : (⟨S600000x1, .i32⟩ : BufTy).Contents (Elt Ideal)) (e : Fin 600000) (k : Fin 128) :
    Host.gather gather_S50000x128_S600000x1_S600000x128_1_0_n_n_0_1_1128 y c (ix2 e k)
      = y (ix2 ⟨min (c (ix2 e (0 : Fin 1))).toInt.toNat 49999, by omega⟩ k) :=
  gather_rows_apply (N := 50000) (C := 128) (P := 600000) (by decide) Facts₀.gather_S50000x128_S600000x1_S600000x128_1_0_n_n_0_1_1128_wf y c (ix2 e k)

theorem scatter_read (x : (⟨S50000x128, .f32⟩ : BufTy).Contents (Elt Ideal)) (c : (⟨S600000x1, .i32⟩ : BufTy).Contents (Elt Ideal))
    (u : (⟨S600000x128, .f32⟩ : BufTy).Contents (Elt Ideal)) (n : Fin 50000) (k : Fin 128) :
    Host.scatterAdd (F := Ideal) (φ := .f32) scatter_S50000x128_S600000x1_S600000x128_1_0_0_1 x c u (ix2 n k)
      = x (ix2 n k) + ∑ p ∈ Finset.univ.filter (fun p : Fin 600000 => (c (ix2 p (0 : Fin 1))).toInt = (n.val : Int)),
          u (ix2 p k) :=
  ScatterRows.scatterAdd_rows_apply (N := 50000) (C := 128) (P := 600000) (φ := .f32) Facts₀.scatter_S50000x128_S600000x1_S600000x128_1_0_0_1_wf x c u (ix2 n k)

def aggregate (h : (⟨S50000x128, .f32⟩ : BufTy).Contents (Elt Ideal)) (x1 x2 : (⟨S600000, .i32⟩ : BufTy).Contents (Elt Ideal)) : (⟨S50000x128, .f32⟩ : BufTy).Contents (Elt Ideal) :=
  mulf (F := Ideal) (s := S50000x128) (φ := .f32)
    (Host.scatterAdd (F := Ideal) (φ := .f32) scatter_S50000x128_S600000x1_S600000x128_1_0_0_1 (val_main_v17 (F := Ideal)) (val_main_v18 (F := Ideal) x2)
      (Host.gather gather_S50000x128_S600000x1_S600000x128_1_0_n_n_0_1_1128
        (mulf (F := Ideal) (s := S50000x128) (φ := .f32) h (val_main_v8 (F := Ideal) x2)) (val_main_v15 (F := Ideal) x1)))
    (val_main_v21 (F := Ideal) x2)

theorem aggregate_apply (h : (⟨S50000x128, .f32⟩ : BufTy).Contents (Elt Ideal)) (x1 x2 : (⟨S600000, .i32⟩ : BufTy).Contents (Elt Ideal)) (n : Fin 50000) (k : Fin 128) :
    aggregate h x1 x2 (ix2 n k)
      = (0 + ∑ e ∈ Finset.univ.filter (fun e : Fin 600000 => (x2 (ix1 e)).toInt = (n.val : Int)),
            h (ix2 (Gcn.rowOf (x1 (ix1 e))) k) * val_main_v6 (F := Ideal) x2 (ix1 (Gcn.rowOf (x1 (ix1 e)))))
          * val_main_v6 (F := Ideal) x2 (ix1 n) := by
  unfold aggregate
  rw [mulf_apply, scale_dst, scatter_read, zero_table]
  refine congrArg (fun t : EReal => (0 + t) * val_main_v6 (F := Ideal) x2 (ix1 n)) ?_
  refine Finset.sum_congr (Finset.filter_congr fun p _ => ?_) fun p _ => ?_
  · rw [dst_col]
  · rw [gather_read]
    have hr : (⟨min (val_main_v15 (F := Ideal) x1 (ix2 p (0 : Fin 1))).toInt.toNat 49999, by omega⟩ : Fin 50000)
        = Gcn.rowOf (x1 (ix1 p)) := Fin.ext (by
      show min (val_main_v15 (F := Ideal) x1 (ix2 p (0 : Fin 1))).toInt.toNat 49999 = (Gcn.rowOf (x1 (ix1 p))).val
      rw [src_col, rowOf_val])
    rw [hr, mulf_apply, scale_src]

theorem refLayer_apply (h : Fin Gcn.N → Fin 128 → EReal) (src dst : Fin Gcn.E → BitVec 32) (nrm : Fin Gcn.N → EReal)
    (W : Fin 128 → Fin 128 → EReal) (b : Fin 128 → EReal) (n : Fin Gcn.N) (d : Fin 128) :
    Gcn.refLayer h src dst nrm W b n d
      = (∑ k : Fin 128,
          ((0 + ∑ e ∈ Finset.univ.filter (fun e : Fin Gcn.E => (dst e).toInt = (n.val : Int)),
              h (Gcn.rowOf (src e)) k * nrm (Gcn.rowOf (src e))) * nrm n) * W k d) + b d := rfl

theorem layer_one (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (n : Fin 50000) (d : Fin 128) :
    val_main_v26 (F := Ideal) x0 x1 x2 x3 x4 (ix2 n d)
      = Gcn.refLayer (fun n d => x0 (ix2 n d)) (fun e => x1 (ix1 e)) (fun e => x2 (ix1 e))
          (fun n => val_main_v6 (F := Ideal) x2 (ix1 n)) (fun k d => x3 (ix2 k d)) (fun d => x4 (ix1 d)) n d := by
  rw [val_main_v26_apply, val_main_v23_apply, bias_one, Ideal.addf_def, refLayer_apply]
  refine congrArg (fun t : EReal => t + x4 (ix1 d)) (Finset.sum_congr rfl fun k _ => ?_)
  rw [lhs_idx_one, rhs_idx_one, show val_main_v22 (F := Ideal) x0 x1 x2 = aggregate x0 x1 x2 from rfl, aggregate_apply]

theorem relu_apply (x0 : (⟨S50000x128, .f32⟩ : BufTy).Contents (Elt Ideal)) (x1 x2 : (⟨S600000, .i32⟩ : BufTy).Contents (Elt Ideal)) (x3 : (⟨S128x128, .f32⟩ : BufTy).Contents (Elt Ideal)) (x4 : (⟨S128, .f32⟩ : BufTy).Contents (Elt Ideal)) (i : S50000x128.Idx) :
    val_main_v27 (F := Ideal) x0 x1 x2 x3 x4 i = max (val_main_v26 (F := Ideal) x0 x1 x2 x3 x4 i) (0 : EReal) := by
  rw [val_main_v27_apply, val_main_call0_v0_apply, val_main_call0_cst_apply, Ideal.ofBits_def, Ideal.ofBits_zero_f32,
    Ideal.maximumf_def]

/-- The second layer is the first one's stage applied to the first layer's cut-off output, so the result is the direct two-layer function. -/
theorem result_apply (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) (n : Fin 50000) (d : Fin 128) :
    val_main_v47 (F := Ideal) x0 x1 x2 x3 x4 x5 x6 (ix2 n d)
      = Gcn.directOut (fun n d => x0 (ix2 n d)) (fun e => x1 (ix1 e)) (fun e => x2 (ix1 e)) (fun n => val_main_v6 (F := Ideal) x2 (ix1 n))
          (fun k d => x3 (ix2 k d)) (fun d => x4 (ix1 d)) (fun k d => x5 (ix2 k d)) (fun d => x6 (ix1 d)) n d := by
  have hh : (fun (r : Fin Gcn.N) (k : Fin 128) => val_main_v27 (F := Ideal) x0 x1 x2 x3 x4 (ix2 r k))
      = fun r k => max (Gcn.refLayer (fun n d => x0 (ix2 n d)) (fun e => x1 (ix1 e)) (fun e => x2 (ix1 e))
          (fun n => val_main_v6 (F := Ideal) x2 (ix1 n)) (fun k d => x3 (ix2 k d)) (fun d => x4 (ix1 d)) r k) 0 := by
    funext r k
    rw [relu_apply, layer_one]
  refine (layer_one (val_main_v27 (F := Ideal) x0 x1 x2 x3 x4) x1 x2 x5 x6 n d).trans ?_
  rw [hh]
  rfl

end Cert.ReferenceIdeal.RefRead

end
-- ==== Proof.PreSrc.lean ====
import proofs.«421167_j1614907703321_1_alg».proof.Pre_finite_inputs
import Idealize.ShloMosaic.Lib.ReduceAll
import Idealize.ShloMosaic.Lib.StableHlo.Predicate
import Idealize.ShloMosaic.Lib.ValueIdx

namespace Cert.Pre_finite_inputs.Decode

open Idealize.ShloMosaic

instance scalarIdx_subsingleton : Subsingleton S_.Idx := ⟨fun a b => funext fun d => d.elim0⟩

/-- The precondition's added conjuncts say every source word is a node number. -/
theorem src_range {F : FTy → Type} [FloatOps F] [Facts] (a0 : FVec F S50000x128 .f32) (a1 a2 : IVec S600000 32)
    (a3 : FVec F S128x128 .f32) (a4 : FVec F S128 .f32) (a5 : FVec F S128x128 .f32) (a6 : FVec F S128 .f32)
    (h : Cert.Pre_finite_inputs.fn (F := F) a0 a1 a2 a3 a4 a5 a6 = fun _ => 1#1) :
    ∀ e : Fin 600000, 0 ≤ (a1 (Idealize.ShloMosaic.ValueIdx.ix1 e)).toInt
      ∧ (a1 (Idealize.ShloMosaic.ValueIdx.ix1 e)).toInt < 50000 := by
  intro e

  have h0 := congrFun h ValueIdx.ix0
  dsimp only [fn, fn_part1, andi] at h0

  obtain ⟨hrest, hlt⟩ := IntOp.andi_eq_one.1 h0
  obtain ⟨-, hge⟩ := IntOp.andi_eq_one.1 hrest

  have hge1 := Host.reduce_andi_all _ _ _ _ _ hge (ValueIdx.ix1 e)
  have hlt1 := Host.reduce_andi_all _ _ _ _ _ hlt (ValueIdx.ix1 e)

  have hge2 : IntOp.cmpi .sge (a1 (ValueIdx.ix1 e)) (0#32) = 1#1 := hge1
  have hlt2 : IntOp.cmpi .slt (a1 (ValueIdx.ix1 e)) (50000#32) = 1#1 := hlt1

  rw [IntOp.cmpi_sge, show (0#32 : BitVec 32).toInt = 0 from by decide] at hge2
  rw [IntOp.cmpi_slt, StableHlo.Predicate.toInt_ofNat_small 50000 (by decide)] at hlt2
  exact ⟨hge2, by omega⟩

end Cert.Pre_finite_inputs.Decode
-- ==== Proof.Algebra.lean ====
import proofs.«421167_j1614907703321_1_alg».proof.Proof.Spec
import Mathlib.Algebra.BigOperators.Fin
import Mathlib.Algebra.BigOperators.Group.Finset.Basic
import Mathlib.Data.EReal.Basic
import Mathlib.Data.Fin.SuccPred
import Mathlib.Data.Fintype.BigOperators
import Mathlib.Logic.Equiv.Fin.Basic

noncomputable section

namespace Gcn

open scoped BigOperators

/-- A double sum over `a` tiles of `b` numbers each is the sum over all `a * b` numbers. -/
theorem sum_tiles {M : Type*} [AddCommMonoid M] {a b n : ℕ} (hn : a * b = n) (g : Fin a → Fin b → Fin n)
    (hg : ∀ j k, (g j k).val = j.val * b + k.val) (f : Fin n → M) :
    ∑ j : Fin a, ∑ k : Fin b, f (g j k) = ∑ m : Fin n, f m := by
  rw [← Fintype.sum_prod_type' (fun j k => f (g j k))]
  refine Fintype.sum_equiv (finProdFinEquiv.trans (finCongr hn)) _ _ ?_
  rintro ⟨j, k⟩
  refine congrArg f (Fin.ext ?_)
  show (g j k).val = k.val + b * j.val
  rw [hg, Nat.add_comm, Nat.mul_comm]

theorem toInt_eq_toNat_of_nonneg (w : BitVec 32) (h : 0 ≤ w.toInt) : w.toInt = (w.toNat : Int) := by
  have hw : w.toNat < 2 ^ 32 := w.isLt
  have hc := BitVec.toInt_eq_toNat_cond w
  split at hc <;> omega

theorem eq_ofNat_iff_toNat (w : BitVec 32) (n : Nat) (hn : n < 2 ^ 32) :
    w = BitVec.ofNat 32 n ↔ w.toNat = n := by
  rw [BitVec.toNat_eq, BitVec.toNat_ofNat, Nat.mod_eq_of_lt hn]

theorem eq_ofNat_iff_toInt (w : BitVec 32) (n : Nat) (hn : n < 2 ^ 31) :
    w = BitVec.ofNat 32 n ↔ w.toInt = (n : Int) := by
  have hw : w.toNat < 2 ^ 32 := w.isLt
  rw [eq_ofNat_iff_toNat w n (by omega)]
  constructor
  · intro h
    rw [BitVec.toInt_eq_toNat_of_lt (x := w) (by omega), h]
  · intro h
    have := toInt_eq_toNat_of_nonneg w (by omega)
    omega

/-- The selector entry, with "the word is the number" said through either reading of the word. -/
theorem hot_eq_ite_toNat (w : BitVec 32) (n : Nat) (hn : n < 2 ^ 32) :
    hot w n = if w.toNat = n then 1 else 0 :=
  if_congr (eq_ofNat_iff_toNat w n hn) rfl rfl

theorem hot_eq_ite_toInt (w : BitVec 32) (n : Nat) (hn : n < 2 ^ 31) :
    hot w n = if w.toInt = (n : Int) then 1 else 0 :=
  if_congr (eq_ofNat_iff_toInt w n hn) rfl rfl

theorem hot_pad (n : Nat) (hn : n < NP) : hot 4294967295#32 n = 0 := by
  have hn' : n < 50176 := hn
  rw [hot_eq_ite_toNat _ n (by omega), if_neg (show ¬ (4294967295#32 : BitVec 32).toNat = n by show ¬ 4294967295 = n; omega)]

theorem rowOf_val (w : BitVec 32) (h : 0 ≤ w.toInt ∧ w.toInt < 50000) : (rowOf w).val = w.toNat := by
  have hnn := toInt_eq_toNat_of_nonneg w h.1
  show min (if w.toInt < 0 then (w + 50000#32).toInt else w.toInt).toNat (50000 - 1) = w.toNat
  rw [if_neg (by omega)]
  omega

def up (n : Fin N) : Fin NP := ⟨n.val, Nat.lt_trans n.isLt (by decide)⟩

def upE (e : Fin E) : Fin EP := ⟨e.val, Nat.lt_trans e.isLt (by decide)⟩

theorem upE_injective : Function.Injective upE := fun a b h => Fin.ext (congrArg Fin.val h : (upE a).val = (upE b).val)

theorem padIdx_upE (x : Fin E → BitVec 32) (e : Fin E) : padIdx x (upE e) = x e := dif_pos e.isLt

theorem padIdx_of_not_lt (x : Fin E → BitVec 32) (e : Fin EP) (he : ¬ e.val < E) : padIdx x e = 4294967295#32 :=
  dif_neg he

theorem padVec_up (x : Fin N → EReal) (n : Fin N) : padVec x (up n) = x n := dif_pos n.isLt

theorem padRows_up (x : Fin N → Fin 128 → EReal) (n : Fin N) (d : Fin 128) : padRows x (up n) d = x n d := by
  unfold padRows
  exact dif_pos n.isLt

theorem gatherRows_eq_sum (idx : Fin EP → BitVec 32) (h : Fin NP → Fin 128 → EReal) (nrm : Fin NP → EReal)
    (e : Fin EP) (d : Fin 128) :
    gatherRows idx h nrm e d = ∑ m : Fin NP, hot (idx e) m.val * (h m d * nrm m) :=
  sum_tiles (a := 98) (b := 512) rfl nodeOf (fun _ _ => rfl) (fun m => hot (idx e) m.val * (h m d * nrm m))

/-- A selector row has a single one, so the product with it picks one row. -/
theorem sum_hot_toNat (w : BitVec 32) (hw : w.toNat < NP) (g : Fin NP → EReal) :
    ∑ m : Fin NP, hot w m.val * g m = g ⟨w.toNat, hw⟩ := by
  have hlt : ∀ m : Fin NP, m.val < 2 ^ 32 := fun m => by
    have : m.val < 50176 := m.isLt
    omega
  rw [Finset.sum_eq_single (⟨w.toNat, hw⟩ : Fin NP)]
  · rw [hot_eq_ite_toNat _ _ (hlt _), if_pos rfl, one_mul]
  · intro m _ hm
    rw [hot_eq_ite_toNat _ _ (hlt m), if_neg (fun hEq => hm (Fin.ext hEq.symm)), zero_mul]
  · intro hmem
    exact absurd (Finset.mem_univ _) hmem

theorem gatherRows_real (src : Fin E → BitVec 32) (hsrc : ∀ e : Fin E, 0 ≤ (src e).toInt ∧ (src e).toInt < 50000)
    (h : Fin NP → Fin 128 → EReal) (nrm : Fin N → EReal) (e : Fin E) (d : Fin 128) :
    gatherRows (padIdx src) h (padVec nrm) (upE e) d = h (up (rowOf (src e))) d * nrm (rowOf (src e)) := by
  have hv := rowOf_val (src e) (hsrc e)
  have hr : (rowOf (src e)).val < 50000 := (rowOf (src e)).isLt
  have hlt : (src e).toNat < NP := by
    show _ < 50176
    omega
  have hup : (⟨(src e).toNat, hlt⟩ : Fin NP) = up (rowOf (src e)) := Fin.ext hv.symm
  rw [gatherRows_eq_sum, padIdx_upE, sum_hot_toNat _ hlt, hup, padVec_up]

theorem scatterAcc_eq_sum (idx : Fin EP → BitVec 32) (msgs : Fin EP → Fin 128 → EReal) (n : Fin NP) (d : Fin 128) :
    scatterAcc idx msgs n d = ∑ e : Fin EP, hot (idx e) n.val * msgs e d :=
  sum_tiles (a := 293) (b := 2048) rfl edgeOf (fun _ _ => rfl) (fun e => hot (idx e) n.val * msgs e d)

theorem scatterAcc_real (dst : Fin E → BitVec 32) (msgs : Fin EP → Fin 128 → EReal) (n : Fin NP) (d : Fin 128) :
    scatterAcc (padIdx dst) msgs n d = ∑ e : Fin E, hot (dst e) n.val * msgs (upE e) d := by
  rw [scatterAcc_eq_sum]
  refine (Fintype.sum_of_injective upE upE_injective
    (fun e => hot (dst e) n.val * msgs (upE e) d) (fun e => hot (padIdx dst e) n.val * msgs e d) ?_ ?_).symm
  · intro e he
    have hne : ¬ e.val < E := fun hlt => he (Set.mem_range.2 ⟨⟨e.val, hlt⟩, Fin.ext rfl⟩)
    show hot (padIdx dst e) n.val * msgs e d = 0
    rw [padIdx_of_not_lt dst e hne, hot_pad n.val n.isLt, zero_mul]
  · intro e
    show hot (dst e) n.val * msgs (upE e) d = hot (padIdx dst (upE e)) n.val * msgs (upE e) d
    rw [padIdx_upE]

theorem scatterAcc_filter (dst : Fin E → BitVec 32) (msgs : Fin EP → Fin 128 → EReal) (n : Fin N) (d : Fin 128) :
    scatterAcc (padIdx dst) msgs (up n) d
      = ∑ e ∈ Finset.univ.filter (fun e : Fin E => (dst e).toInt = (n.val : Int)), msgs (upE e) d := by
  have hn : n.val < 2 ^ 31 := by
    have : n.val < 50000 := n.isLt
    omega
  rw [scatterAcc_real, Finset.sum_filter]
  refine Finset.sum_congr rfl fun e _ => ?_
  show hot (dst e) n.val * msgs (upE e) d = if (dst e).toInt = (n.val : Int) then msgs (upE e) d else 0
  rw [hot_eq_ite_toInt _ _ hn, ite_mul, one_mul, zero_mul]

theorem scatterAcc_gather (h : Fin NP → Fin 128 → EReal) (src dst : Fin E → BitVec 32) (nrm : Fin N → EReal)
    (hsrc : ∀ e : Fin E, 0 ≤ (src e).toInt ∧ (src e).toInt < 50000) (n : Fin N) (k : Fin 128) :
    scatterAcc (padIdx dst) (gatherRows (padIdx src) h (padVec nrm)) (up n) k
      = ∑ e ∈ Finset.univ.filter (fun e : Fin E => (dst e).toInt = (n.val : Int)),
          h (up (rowOf (src e))) k * nrm (rowOf (src e)) := by
  rw [scatterAcc_filter]
  exact Finset.sum_congr rfl (fun e _ => gatherRows_real src hsrc h nrm e k)

theorem layer_eq (h : Fin NP → Fin 128 → EReal) (src dst : Fin E → BitVec 32) (nrm : Fin N → EReal)
    (W : Fin 128 → Fin 128 → EReal) (b : Fin 128 → EReal)
    (hsrc : ∀ e : Fin E, 0 ≤ (src e).toInt ∧ (src e).toInt < 50000) (n : Fin N) (d : Fin 128) :
    dense (scatterAcc (padIdx dst) (gatherRows (padIdx src) h (padVec nrm))) (padVec nrm) W b (up n) d
      = refLayer (fun m c => h (up m) c) src dst nrm W b n d := by
  unfold dense refLayer
  refine congrArg (fun s => s + b d) (Finset.sum_congr rfl (fun k _ => ?_))
  rw [scatterAcc_gather h src dst nrm hsrc n k, padVec_up, zero_add]

/-- With every source word a node number the padded, tiled computation is the direct one: padded edges carry `-1` and select nothing. -/
theorem tiledOut_eq_directOut (feat : Fin N → Fin 128 → EReal) (src dst : Fin E → BitVec 32) (nrm : Fin N → EReal)
    (W0 : Fin 128 → Fin 128 → EReal) (b0 : Fin 128 → EReal) (W1 : Fin 128 → Fin 128 → EReal) (b1 : Fin 128 → EReal)
    (hsrc : ∀ e : Fin E, 0 ≤ (src e).toInt ∧ (src e).toInt < 50000) :
    tiledOut feat src dst nrm W0 b0 W1 b1 = directOut feat src dst nrm W0 b0 W1 b1 := by
  funext n d
  have h1 : ∀ (m : Fin N) (c : Fin 128),
      max (dense (scatterAcc (padIdx dst) (gatherRows (padIdx src) (padRows feat) (padVec nrm)))
          (padVec nrm) W0 b0 (up m) c) 0
        = max (refLayer feat src dst nrm W0 b0 m c) 0 := by
    intro m c
    rw [layer_eq (padRows feat) src dst nrm W0 b0 hsrc m c]
    simp only [padRows_up]
  show dense (scatterAcc (padIdx dst) (gatherRows (padIdx src)
        (fun p c => max (dense (scatterAcc (padIdx dst) (gatherRows (padIdx src) (padRows feat) (padVec nrm)))
          (padVec nrm) W0 b0 p c) 0) (padVec nrm))) (padVec nrm) W1 b1 (up n) d
      = refLayer (fun m c => max (refLayer feat src dst nrm W0 b0 m c) 0) src dst nrm W1 b1 n d
  rw [layer_eq _ src dst nrm W1 b1 hsrc n d]
  simp only [h1]

end Gcn

end
-- ==== Proof.lean ====
/- Two graph-convolution layers computed by 0/1 selector products on padded tiles equal the directly indexed, scatter-added
   layers wherever every source word is a node number; only `+` being a commutative monoid, `1 * x = x` and `0 * x = 0` are used. -/
import proofs.«421167_j1614907703321_1_alg».proof.Defs
import proofs.«421167_j1614907703321_1_alg».proof.Proof.Gen.Kernel
import proofs.«421167_j1614907703321_1_alg».proof.Proof.Gen.KernelIdeal
import proofs.«421167_j1614907703321_1_alg».proof.Proof.Gen.ReferenceIdeal
import proofs.«421167_j1614907703321_1_alg».proof.Proof.Gen.Pre_finite_inputs
import proofs.«421167_j1614907703321_1_alg».proof.Proof.Gen.ReferenceIdeal.Run
import proofs.«421167_j1614907703321_1_alg».proof.Proof.K.Frames
import proofs.«421167_j1614907703321_1_alg».proof.Proof.KI.Frames
import proofs.«421167_j1614907703321_1_alg».proof.Proof.KI.Result
import proofs.«421167_j1614907703321_1_alg».proof.Proof.RefRead
import proofs.«421167_j1614907703321_1_alg».proof.Proof.PreSrc
import proofs.«421167_j1614907703321_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

/-- Both programs compute the per-node scale from the destination words by the same operations. -/
theorem scale_eq (m : (ℓ : Loc Cert.KernelIdeal.nD Cert.KernelIdeal.τ Cert.KernelIdeal.sig) → Buf (Elt Ideal) ℓ)
    (c : Dev Cert.KernelIdeal.nD) :
    Cert.KernelIdeal.HostRead.scale m c
      = Cert.ReferenceIdeal.Read.val_main_v6 (F := Ideal) (Cert.KernelIdeal.HostRead.dstW m c) := by
  show StableHlo.after Cert.KernelIdeal.Gen.hostOps0 (Cert.KernelIdeal.Gen.V0 m c) (Proc.devRef .tc Cert.KernelIdeal.main_v6) = _
  after_results
  rfl

theorem frame_word : Cert.frame_Kernel := fun m ρ _ => Cert.Kernel.Frames.frame m ρ

theorem frame_ideal : Cert.frame_KernelIdeal := fun m ρ _ => Cert.KernelIdeal.Frames.frame m ρ

theorem frame_reference : Cert.frame_ReferenceIdeal := fun m ρ _ =>
  (θ_run Cert.ReferenceIdeal.defs _ _).mono (fun _ h c => (h c).2) (Cert.ReferenceIdeal.Value.run (F := Ideal) m ρ)

section Value

open Cert.KernelIdeal

variable (m : (ℓ : Loc Cert.KernelIdeal.nD Cert.KernelIdeal.τ Cert.KernelIdeal.sig) → Buf (Elt Ideal) ℓ)

theorem src_in_range (hpre : Cert.Pre_KernelIdeal m) (c : Dev Cert.KernelIdeal.nD) :
    ∀ e : Fin Gcn.E, 0 ≤ (Final.srcF m c e).toInt ∧ (Final.srcF m c e).toInt < 50000 :=
  Cert.Pre_finite_inputs.Decode.src_range (F := Ideal) _ _ _ _ _ _ _ (hpre c)

/-- The reference's term of the kernel program's arguments is the kernel program's result array. -/
theorem results_agree (hpre : Cert.Pre_KernelIdeal m) (c : Dev Cert.KernelIdeal.nD) :
    Cert.ReferenceIdeal.Read.val_main_v47 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      = Frames.atEnd m c (Proc.devRef .tc main_v15) := by
  funext i
  obtain ⟨n, d, rfl⟩ : ∃ (n : Fin 50000) (d : Fin 128), i = ix2 n d := ⟨i 0, i 1, eq_ix2 i⟩
  refine (Cert.ReferenceIdeal.RefRead.result_apply _ _ _ _ _ _ _ n d).trans ?_
  refine Eq.trans ?_ (Result.value m c n d).symm
  rw [Gcn.tiledOut_eq_directOut _ _ _ _ _ _ _ _ (src_in_range m hpre c)]
  show Gcn.directOut _ _ _ (fun n => Cert.ReferenceIdeal.Read.val_main_v6 (F := Ideal) (HostRead.dstW m c) (ix1 n)) _ _ _ _ n d
      = Gcn.directOut _ _ _ (fun n => HostRead.scale m c (ix1 n)) _ _ _ _ n d
  rw [scale_eq m c]

end Value

theorem algebraic : Cert.algebraic_KernelIdeal_ReferenceIdeal := by
  intro m ρ m' ρ' hpre hagree
  refine ⟨fun c => Cert.KernelIdeal.Frames.atEnd m c (Proc.devRef .tc Cert.KernelIdeal.main_v15), ?_, ?_⟩
  · exact (θ_run Cert.KernelIdeal.defs _ _).mono (fun r h c =>
      have arg (b : Ref Cert.KernelIdeal.sig .tc) (hs : ¬ (Proc.devRef .tc b : DevRef Cert.KernelIdeal.τ Cert.KernelIdeal.sig).isScoped)
          (hk : Cert.KernelIdeal.Whole.Kept b) :
          r.2.mem ((c.tc : Thread Cert.KernelIdeal.nD Cert.KernelIdeal.τ).loc b) = m ((c.tc : Thread Cert.KernelIdeal.nD Cert.KernelIdeal.τ).loc b) :=
        (h c _ (Cert.KernelIdeal.Whole.mem_uc b hs)).trans (Cert.KernelIdeal.Whole.B13_launch _ _ _ _ m c b hk)
      ⟨h c _ (Cert.KernelIdeal.Whole.mem_uc Cert.KernelIdeal.main_v15 (by decide)),
       arg Cert.KernelIdeal.main_arg0 (by decide) (by decide), arg Cert.KernelIdeal.main_arg1 (by decide) (by decide),
       arg Cert.KernelIdeal.main_arg2 (by decide) (by decide), arg Cert.KernelIdeal.main_arg3 (by decide) (by decide),
       arg Cert.KernelIdeal.main_arg4 (by decide) (by decide), arg Cert.KernelIdeal.main_arg5 (by decide) (by decide),
       arg Cert.KernelIdeal.main_arg6 (by decide) (by decide)⟩)
      (Cert.KernelIdeal.Frames.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v47_eq, h0, h1, h2, h3, h4, h5, h6]
    exact results_agree m hpre c

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
